-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x256x256 : Shape := ⟨4, ![64, 3, 256, 256]⟩
abbrev S64 : Shape := ⟨1, ![64]⟩
abbrev S_ : Shape := ⟨0, ![]⟩

class Facts : Prop where
  bcast_S_S64x3x256x256 : S_.BroadcastsInDim S64x3x256x256 (![] : Fin 0 → Fin S64x3x256x256.rank)
  reducesTo_S64x3x256x256_S_d0_1_2_3 : S64x3x256x256.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x3x256x256 .f32) (main_v13 : IVec S_ 1) (main_v16 : IVec S64x3x256x256 1) : IVec S_ 1 :=
  let main_c_5 : IVec S_ 1 := constantI S_ 1 1#1
  let main_v17 : IVec S_ 1 := (fun x v => Host.reduce IntOp.andi x v reducesTo_S64x3x256x256_S_d0_1_2_3 h_S_) main_v16 main_c_5
  let main_v18 : IVec S_ 1 := andi main_v13 main_v17
  let main_v19 : FVec F S64x3x256x256 .f32 := Host.absf main_arg4
  let main_cst_6 : FVec F S_ .f32 := constant S_ .f32 0x7F800000#32
  let main_v20 : FVec F S64x3x256x256 .f32 := broadcastInDim S64x3x256x256 ![] bcast_S_S64x3x256x256 main_cst_6
  let main_v21 : IVec S64x3x256x256 1 := cmpf .olt main_v19 main_v20
  let main_c_7 : IVec S_ 1 := constantI S_ 1 1#1
  let main_v22 : IVec S_ 1 := (fun x v => Host.reduce IntOp.andi x v reducesTo_S64x3x256x256_S_d0_1_2_3 h_S_) main_v21 main_c_7
  let main_v23 : IVec S_ 1 := andi main_v18 main_v22
  main_v23

def fn {F : FTy → Type} [FloatOps F] (main_arg0 : FVec F S64x3x256x256 .f32) (main_arg1 : FVec F S64x3x256x256 .f32) (main_arg2 : FVec F S64 .f32) (main_arg3 : FVec F S64x3x256x256 .f32) (main_arg4 : FVec F S64x3x256x256 .f32) : IVec S_ 1 :=
  let main_v0 : FVec F S64x3x256x256 .f32 := Host.absf main_arg0
  let main_cst : FVec F S_ .f32 := constant S_ .f32 0x7F800000#32
  let main_v1 : FVec F S64x3x256x256 .f32 := broadcastInDim S64x3x256x256 ![] bcast_S_S64x3x256x256 main_cst
  let main_v2 : IVec S64x3x256x256 1 := cmpf .olt main_v0 main_v1
  let main_c : IVec S_ 1 := constantI S_ 1 1#1
  let main_v3 : IVec S_ 1 := (fun x v => Host.reduce IntOp.andi x v reducesTo_S64x3x256x256_S_d0_1_2_3 h_S_) main_v2 main_c
  let main_v4 : FVec F S64x3x256x256 .f32 := Host.absf main_arg1
  let main_cst_0 : FVec F S_ .f32 := constant S_ .f32 0x7F800000#32
  let main_v5 : FVec F S64x3x256x256 .f32 := broadcastInDim S64x3x256x256 ![] bcast_S_S64x3x256x256 main_cst_0
  let main_v6 : IVec S64x3x256x256 1 := cmpf .olt main_v4 main_v5
  let main_c_1 : IVec S_ 1 := constantI S_ 1 1#1
  let main_v7 : IVec S_ 1 := (fun x v => Host.reduce IntOp.andi x v reducesTo_S64x3x256x256_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x3x256x256 .f32 := Host.absf main_arg3
  let main_cst_4 : FVec F S_ .f32 := constant S_ .f32 0x7F800000#32
  let main_v15 : FVec F S64x3x256x256 .f32 := broadcastInDim S64x3x256x256 ![] bcast_S_S64x3x256x256 main_cst_4
  let main_v16 : IVec S64x3x256x256 1 := cmpf .olt main_v14 main_v15
  fn_part1 (F := F) main_arg4 main_v13 main_v16
-- ==== Kernel.lean ====
abbrev S64x3x256x256 : Shape := ⟨4, ![64, 3, 256, 256]⟩
abbrev S64 : Shape := ⟨1, ![64]⟩
abbrev S64x196608 : Shape := ⟨2, ![64, 196608]⟩
abbrev S_ : Shape := ⟨0, ![]⟩
abbrev S64x1 : Shape := ⟨2, ![64, 1]⟩
abbrev S2x64x1 : Shape := ⟨3, ![2, 64, 1]⟩
abbrev S2x64x64 : Shape := ⟨3, ![2, 64, 64]⟩
abbrev S64x4096 : Shape := ⟨2, ![64, 4096]⟩
abbrev S1x64x1 : Shape := ⟨3, ![1, 64, 1]⟩
abbrev S1x64x64 : Shape := ⟨3, ![1, 64, 64]⟩
abbrev S64x64 : Shape := ⟨2, ![64, 64]⟩
abbrev S1x64 : Shape := ⟨2, ![1, 64]⟩
abbrev S2x1x1 : Shape := ⟨3, ![2, 1, 1]⟩
abbrev S1x1x1 : Shape := ⟨3, ![1, 1, 1]⟩
abbrev S1x1 : Shape := ⟨2, ![1, 1]⟩
abbrev S1 : Shape := ⟨1, ![1]⟩

abbrev nBuf : Space → Nat
  | .hbm => 67
  | .vmem => 27
  | .smem => 0
  | _ => 0

abbrev bufTy : (tb : Table) → Fin (tcTables nBuf tb) → BufTy
  | .hbm, ⟨0, _⟩ => ⟨S64x3x256x256, .f32⟩
  | .hbm, ⟨1, _⟩ => ⟨S64x3x256x256, .f32⟩
  | .hbm, ⟨2, _⟩ => ⟨S64, .f32⟩
  | .hbm, ⟨3, _⟩ => ⟨S64x3x256x256, .f32⟩
  | .hbm, ⟨4, _⟩ => ⟨S64x3x256x256, .f32⟩
  | .hbm, ⟨5, _⟩ => ⟨S64x196608, .f32⟩
  | .hbm, ⟨6, _⟩ => ⟨S64x196608, .f32⟩
  | .hbm, ⟨7, _⟩ => ⟨S64x196608, .f32⟩
  | .hbm, ⟨8, _⟩ => ⟨S64x196608, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S2x64x1, .f32⟩
  | .hbm, ⟨14, _⟩ => ⟨S2x64x1, .f32⟩
  | .hbm, ⟨15, _⟩ => ⟨S2x64x64, .f32⟩
  | .hbm, ⟨16, _⟩ => ⟨S_, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S_, .f32⟩
  | .hbm, ⟨21, _⟩ => ⟨S64x64, .f32⟩
  | .hbm, ⟨22, _⟩ => ⟨S_, .f32⟩
  | .hbm, ⟨23, _⟩ => ⟨S64x1, .f32⟩
  | .hbm, ⟨24, _⟩ => ⟨S64x1, .f32⟩
  | .hbm, ⟨25, _⟩ => ⟨S64x1, .f32⟩
  | .hbm, ⟨26, _⟩ => ⟨S_, .f32⟩
  | .hbm, ⟨27, _⟩ => ⟨S64x1, .f32⟩
  | .hbm, ⟨28, _⟩ => ⟨S64x1, .f32⟩
  | .hbm, ⟨29, _⟩ => ⟨S1x64, .f32⟩
  | .hbm, ⟨30, _⟩ => ⟨S_, .f32⟩
  | .hbm, ⟨31, _⟩ => ⟨S64x1, .f32⟩
  | .hbm, ⟨32, _⟩ => ⟨S64x1, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x1, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S64x1, .f32⟩
  | .hbm, ⟨44, _⟩ => ⟨S64x1, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S_, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64x1, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S_, .f32⟩
  | .hbm, ⟨58, _⟩ => ⟨S64, .f32⟩
  | .hbm, ⟨59, _⟩ => ⟨S64x1, .f32⟩
  | .hbm, ⟨60, _⟩ => ⟨S64x64, .f32⟩
  | .hbm, ⟨61, _⟩ => ⟨S64x64, .f32⟩
  | .hbm, ⟨62, _⟩ => ⟨S2x1x1, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x1, .f32⟩
  | .local _ .vmem, ⟨5, _⟩ => ⟨S1x64x1, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x64x64, .f32⟩
  | .local _ .vmem, ⟨10, _⟩ => ⟨S1x64x64, .f32⟩
  | .local _ .vmem, ⟨11, _⟩ => ⟨S64x1, .f32⟩
  | .local _ .vmem, ⟨12, _⟩ => ⟨S64x1, .f32⟩
  | .local _ .vmem, ⟨13, _⟩ => ⟨S64x64, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .vmem, ⟨18, _⟩ => ⟨S64x4096, .f32⟩
  | .local _ .vmem, ⟨19, _⟩ => ⟨S64x4096, .f32⟩
  | .local _ .vmem, ⟨20, _⟩ => ⟨S64x4096, .f32⟩
  | .local _ .vmem, ⟨21, _⟩ => ⟨S64x4096, .f32⟩
  | .local _ .vmem, ⟨22, _⟩ => ⟨S64x1, .f32⟩
  | .local _ .vmem, ⟨23, _⟩ => ⟨S64x64, .f32⟩
  | .local _ .vmem, ⟨24, _⟩ => ⟨S1x1x1, .f32⟩
  | .local _ .vmem, ⟨25, _⟩ => ⟨S1x1x1, .f32⟩
  | .local _ .vmem, ⟨26, _⟩ => ⟨S1x1, .f32⟩
  | _, _ => ⟨S64x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v37 : BitVec 1 := Scalar.cmpi .eq arg1 c23_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 24], ![false, false]⟩

def k1_cond2 (i : grid1.Coords) : BitVec 1 :=
  let arg1 : BitVec 32 := BitVec.ofNat 32 (i 1).val
  let c23_i32 : BitVec 32 := 23#32
  let v56 : BitVec 1 := Scalar.cmpi .eq arg1 c23_i32
  let v57 : BitVec 32 := Scalar.extui v56
  let c0_i32_23 : BitVec 32 := 0#32
  let v58 : BitVec 1 := Scalar.cmpi .ne v57 c0_i32_23
  v58

def cc1_transform_0 (i : grid1.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![c0_i32.toNat, v1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S64x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S64x3x256x256_S64x196608 : S64x3x256x256.ShapeCasts S64x196608
  bcast_S_S64 : S_.BroadcastsInDim S64 (![] : Fin 0 → Fin S64.rank)
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  broadcasts_S64x1_S64x4096 : S64x1.Broadcasts S64x4096
  reduces_S64x4096_S64 : S64x4096.Reduces [1] S64
  bitsLt_bf16_f32 : FTy.bits .bf16 < FTy.bits .f32
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  reducesTo_S2x64x1_S64x1_d0 : S2x64x1.ReducesTo [0] S64x1
  h_S_ : 0 < S_.numel
  reducesTo_S2x64x64_S64x64_d0 : S2x64x64.ReducesTo [0] S64x64
  bcast_S_S64x1 : S_.BroadcastsInDim S64x1 (![] : Fin 0 → Fin S64x1.rank)
  shapeCasts_S64x1_S1x64 : S64x1.ShapeCasts S1x64
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S64_d1 : S64x64.ReducesTo [1] S64
  bcast_S64_S64x1_0 : S64.BroadcastsInDim S64x1 (![0] : Fin 1 → Fin S64x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S64x1_S1 : S64x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  dot_S64x4096_S64x4096_S64x64_1_1_0_0_n_n_wf : DotDims.WF S64x4096 S64x4096 S64x64 [1] [1] [0] [0] [] []
  dot_S64x64_S64x4096_S64x4096_1_0_0_1_n_n_wf : DotDims.WF S64x64 S64x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x196608.size a
  hwx0_0 : ∀ i : grid0.Coords, EltTy.bits .f32 = 32 ∨ (Rect.block (s := S64x196608) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x196608.size a
  hwx0_1 : ∀ i : grid0.Coords, EltTy.bits .f32 = 32 ∨ (Rect.block (s := S64x196608) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S2x64x1.size a
  hwx0_3 : ∀ i : grid0.Coords, EltTy.bits .f32 = 32 ∨ (Rect.block (s := S2x64x1) S1x64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x64x1.size a
  hwx0_4 : ∀ i : grid0.Coords, EltTy.bits .f32 = 32 ∨ (Rect.block (s := S2x64x1) S1x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64.size a ≤ S2x64x64.size a
  hwx0_5 : ∀ i : grid0.Coords, EltTy.bits .f32 = 32 ∨ (Rect.block (s := S2x64x64) S1x64x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S64x196608.size a
  hwx1_0 : ∀ i : grid1.Coords, EltTy.bits .f32 = 32 ∨ (Rect.block (s := S64x196608) S64x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S64x196608.size a
  hwx1_1 : ∀ i : grid1.Coords, EltTy.bits .f32 = 32 ∨ (Rect.block (s := S64x196608) S64x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x4096.size a ≤ S64x196608.size a
  hwx1_2 : ∀ i : grid1.Coords, EltTy.bits .f32 = 32 ∨ (Rect.block (s := S64x196608) S64x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x4096.size a ≤ S64x196608.size a
  hwx1_3 : ∀ i : grid1.Coords, EltTy.bits .f32 = 32 ∨ (Rect.block (s := S64x196608) S64x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S64x1.size a
  hwx1_4 : ∀ i : grid1.Coords, EltTy.bits .f32 = 32 ∨ (Rect.block (s := S64x1) S64x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x1.size a ≤ S2x1x1.size a
  hwx1_6 : ∀ i : grid1.Coords, EltTy.bits .f32 = 32 ∨ (Rect.block (s := S2x1x1) S1x1x1.size (cc1_transform_6 i) (hinb1_6 i)).WholeWords (EltTy.packing .f32)

variable [Facts₀]

def dot_S64x4096_S64x4096_S64x64_1_1_0_0_n_n : DotDims S64x4096 S64x4096 S64x64 where
  lhsContracting := [1]
  rhsContracting := [1]
  lhsNonContracting := [0]
  rhsNonContracting := [0]
  lhsBatch := []
  rhsBatch := []
  wf := dot_S64x4096_S64x4096_S64x64_1_1_0_0_n_n_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf

abbrev win0_0 : Pipeline.Window sig grid0 :=
  Pipeline.Window.ofSpec (Memref.whole main_v0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x64x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S64x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S64x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x1x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S64x3x256x256 : Shape := ⟨4, ![64, 3, 256, 256]⟩
abbrev S64 : Shape := ⟨1, ![64]⟩
abbrev S_ : Shape := ⟨0, ![]⟩
abbrev S64x1x1x1 : Shape := ⟨4, ![64, 1, 1, 1]⟩
abbrev S64x1 : Shape := ⟨2, ![64, 1]⟩
abbrev S64x196608 : Shape := ⟨2, ![64, 196608]⟩
abbrev S196608x64 : Shape := ⟨2, ![196608, 64]⟩
abbrev S64x64 : Shape := ⟨2, ![64, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S64x3x256x256, .f32⟩
  | .hbm, ⟨1, _⟩ => ⟨S64x3x256x256, .f32⟩
  | .hbm, ⟨2, _⟩ => ⟨S64, .f32⟩
  | .hbm, ⟨3, _⟩ => ⟨S64x3x256x256, .f32⟩
  | .hbm, ⟨4, _⟩ => ⟨S64x3x256x256, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64x1x1x1, .f32⟩
  | .hbm, ⟨9, _⟩ => ⟨S64x1, .f32⟩
  | .hbm, ⟨10, _⟩ => ⟨S64x3x256x256, .f32⟩
  | .hbm, ⟨11, _⟩ => ⟨S64x3x256x256, .f32⟩
  | .hbm, ⟨12, _⟩ => ⟨S64x3x256x256, .f32⟩
  | .hbm, ⟨13, _⟩ => ⟨S64x3x256x256, .f32⟩
  | .hbm, ⟨14, _⟩ => ⟨S64x196608, .f32⟩
  | .hbm, ⟨15, _⟩ => ⟨S64x196608, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S64x1, .f32⟩
  | .hbm, ⟨20, _⟩ => ⟨S_, .f32⟩
  | .hbm, ⟨21, _⟩ => ⟨S64x1, .f32⟩
  | .hbm, ⟨22, _⟩ => ⟨S64x1, .f32⟩
  | .hbm, ⟨23, _⟩ => ⟨S64x196608, .f32⟩
  | .hbm, ⟨24, _⟩ => ⟨S_, .f32⟩
  | .hbm, ⟨25, _⟩ => ⟨S64, .f32⟩
  | .hbm, ⟨26, _⟩ => ⟨S64x1, .f32⟩
  | .hbm, ⟨27, _⟩ => ⟨S64x196608, .f32⟩
  | .hbm, ⟨28, _⟩ => ⟨S_, .f32⟩
  | .hbm, ⟨29, _⟩ => ⟨S64, .f32⟩
  | .hbm, ⟨30, _⟩ => ⟨S196608x64, .f32⟩
  | .hbm, ⟨31, _⟩ => ⟨S64x64, .f32⟩
  | .hbm, ⟨32, _⟩ => ⟨S_, .f32⟩
  | .hbm, ⟨33, _⟩ => ⟨S64x1, .f32⟩
  | .hbm, ⟨34, _⟩ => ⟨S64x1, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x1, .f32⟩
  | .hbm, ⟨40, _⟩ => ⟨S1x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S_, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64x1, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S_, .f32⟩
  | .hbm, ⟨61, _⟩ => ⟨S64, .f32⟩
  | .hbm, ⟨62, _⟩ => ⟨S64x1, .f32⟩
  | .hbm, ⟨63, _⟩ => ⟨S64x64, .f32⟩
  | .hbm, ⟨64, _⟩ => ⟨S64x64, .f32⟩
  | .hbm, ⟨65, _⟩ => ⟨S64x196608, .f32⟩
  | .hbm, ⟨66, _⟩ => ⟨S64x196608, .f32⟩
  | .hbm, ⟨67, _⟩ => ⟨S_, .f32⟩
  | .hbm, ⟨68, _⟩ => ⟨S64x1, .f32⟩
  | .hbm, ⟨69, _⟩ => ⟨S64x1, .f32⟩
  | .hbm, ⟨70, _⟩ => ⟨S_, .f32⟩
  | .hbm, ⟨71, _⟩ => ⟨S64x1, .f32⟩
  | .hbm, ⟨72, _⟩ => ⟨S64x1, .f32⟩
  | .hbm, ⟨73, _⟩ => ⟨S64x196608, .f32⟩
  | .hbm, ⟨74, _⟩ => ⟨S64x196608, .f32⟩
  | .hbm, ⟨75, _⟩ => ⟨S64x3x256x256, .f32⟩
  | .hbm, ⟨76, _⟩ => ⟨S64x3x256x256, .f32⟩
  | .hbm, ⟨77, _⟩ => ⟨S64x3x256x256, .f32⟩
  | .hbm, ⟨78, _⟩ => ⟨S64x3x256x256, .f32⟩
  | .hbm, ⟨79, _⟩ => ⟨S64x3x256x256, .f32⟩
  | .hbm, ⟨80, _⟩ => ⟨S64x3x256x256, .f32⟩
  | .hbm, ⟨81, _⟩ => ⟨S64x3x256x256, .f32⟩
  | .hbm, ⟨82, _⟩ => ⟨S64x3x256x256, .f32⟩
  | .hbm, ⟨83, _⟩ => ⟨S_, .f32⟩
  | .hbm, ⟨84, _⟩ => ⟨S64x3x256x256, .f32⟩
  | .hbm, ⟨85, _⟩ => ⟨S64x3x256x256, .f32⟩
  | .hbm, ⟨86, _⟩ => ⟨S64x3x256x256, .f32⟩
  | .hbm, ⟨87, _⟩ => ⟨S_, .f32⟩
  | .hbm, ⟨88, _⟩ => ⟨S64x3x256x256, .f32⟩
  | .hbm, ⟨89, _⟩ => ⟨S64x3x256x256, .f32⟩
  | .hbm, ⟨90, _⟩ => ⟨S64x3x256x256, .f32⟩
  | .hbm, ⟨91, _⟩ => ⟨S_, .f32⟩
  | .hbm, ⟨92, _⟩ => ⟨S64x3x256x256, .f32⟩
  | .hbm, ⟨93, _⟩ => ⟨S64x3x256x256, .f32⟩
  | .hbm, ⟨94, _⟩ => ⟨S64x3x256x256, .f32⟩
  | .hbm, ⟨95, _⟩ => ⟨S64x3x256x256, .f32⟩
  | .hbm, ⟨96, _⟩ => ⟨S64x3x256x256, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S64x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_13 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_14 : Ref sig .tc := ⟨.hbm, 97, rfl⟩
abbrev main_v77 : Ref sig .tc := ⟨.hbm, 98, rfl⟩
abbrev main_cst_15 : Ref sig .tc := ⟨.hbm, 99, rfl⟩
abbrev main_v78 : Ref sig .tc := ⟨.hbm, 100, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1x1x1_0 : S64.BroadcastsInDim S64x1x1x1 (![0] : Fin 1 → Fin S64x1x1x1.rank)
  bcast_S64_S64x1_0 : S64.BroadcastsInDim S64x1 (![0] : Fin 1 → Fin S64x1.rank)
  bcast_S64x1x1x1_S64x3x256x256_0_1_2_3 : S64x1x1x1.BroadcastsInDim S64x3x256x256 (![0, 1, 2, 3] : Fin 4 → Fin S64x3x256x256.rank)
  shapeCasts_S64x3x256x256_S64x196608 : S64x3x256x256.ShapeCasts S64x196608
  bcast_S_S64x1 : S_.BroadcastsInDim S64x1 (![] : Fin 0 → Fin S64x1.rank)
  reducesTo_S64x196608_S64_d1 : S64x196608.ReducesTo [1] S64
  h_S_ : 0 < S_.numel
  transposes_S64x196608_S196608x64_1_0 : S64x196608.Transposes [1, 0] S196608x64
  bcast_S64x1_S64x64_0_1 : S64x1.BroadcastsInDim S64x64 (![0, 1] : Fin 2 → Fin S64x64.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  reducesTo_S64x64_S64_d1 : S64x64.ReducesTo [1] S64
  bcast_S64x1_S64x196608_0_1 : S64x1.BroadcastsInDim S64x196608 (![0, 1] : Fin 2 → Fin S64x196608.rank)
  shapeCasts_S64x196608_S64x3x256x256 : S64x196608.ShapeCasts S64x3x256x256
  bcast_S_S64x3x256x256 : S_.BroadcastsInDim S64x3x256x256 (![] : Fin 0 → Fin S64x3x256x256.rank)
  reducesTo_S64x3x256x256_S_d0_1_2_3 : S64x3x256x256.ReducesTo [0, 1, 2, 3] S_
  dot_S64x196608_S196608x64_S64x64_1_0_0_1_n_n_wf : DotDims.WF S64x196608 S196608x64 S64x64 [1] [0] [0] [1] [] []
  dot_S64x64_S64x196608_S64x196608_1_0_0_1_n_n_wf : DotDims.WF S64x64 S64x196608 S64x196608 [1] [0] [0] [1] [] []

variable [Facts₀]

def dot_S64x196608_S196608x64_S64x64_1_0_0_1_n_n : DotDims S64x196608 S196608x64 S64x64 where
  lhsContracting := [1]
  rhsContracting := [0]
  lhsNonContracting := [0]
  rhsNonContracting := [1]
  lhsBatch := []
  rhsBatch := []
  wf := dot_S64x196608_S196608x64_S64x64_1_0_0_1_n_n_wf
def dot_S64x64_S64x196608_S64x196608_1_0_0_1_n_n : DotDims S64x64 S64x196608 S64x196608 where
  lhsContracting := [1]
  rhsContracting := [0]
  lhsNonContracting := [0]
  rhsNonContracting := [1]
  lhsBatch := []
  rhsBatch := []
  wf := dot_S64x64_S64x196608_S64x196608_1_0_0_1_n_n_wf

class Facts : Prop extends Facts₀ where

variable [Facts]
-- ==== Proof.KBits.R0Runs.lean ====
import proofs.«170924_j68367289418164_1_alg».proof.Proof.Gen.Kernel.Launch
import proofs.«170924_j68367289418164_1_alg».proof.Proof.Gen.Kernel.Skeleton
import proofs.«170924_j68367289418164_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 24 = 0 :=
  (by decide +kernel : ∀ t : Fin grid0.N, cond0 (grid0.coords t) ↔ t.val % 24 = 0)

abbrev cond1 (i : grid0.Coords) : Prop := k0_cond2 i = 1#1
theorem hcond1 : ∀ t : Fin cfg0.N, cond1 (grid0.coords t) ↔ t.val % 24 = 23 :=
  (by decide +kernel : ∀ t : Fin grid0.N, cond1 (grid0.coords t) ↔ t.val % 24 = 23)

abbrev VO_3 : View sig .tc .vmem S1x64x1 .f32 := (Memref.whole cc0_stg3_0 : Memref sig .tc .vmem S1x64x1 .f32).view
abbrev VO_4 : View sig .tc .vmem S1x64x1 .f32 := (Memref.whole cc0_stg4_0 : Memref sig .tc .vmem S1x64x1 .f32).view
abbrev VO_5 : View sig .tc .vmem S1x64x64 .f32 := (Memref.whole cc0_stg5_0 : Memref sig .tc .vmem S1x64x64 .f32).view
abbrev ms_0 (t : Fin cfg0.N) : Memref sig .tc .vmem S64x4096 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S64x4096 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S64x1 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x64x1 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x64x1 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x64x64 .f32 := win0_5.stage (cfg0.slots t 5)
abbrev hs_5 (t : Fin cfg0.N) : (ms_5 t).IsWhole := hstage0_5 ((cfg0.slots t 5).cast nbuf0_5)
abbrev scM_0 : Memref sig .tc .vmem S64x1 .f32 := Memref.whole cc0_scratch0
abbrev scM_1 : Memref sig .tc .vmem S64x1 .f32 := Memref.whole cc0_scratch1
abbrev scM_2 : Memref sig .tc .vmem S64x64 .f32 := Memref.whole cc0_scratch2
abbrev VS_0 : View sig .tc .vmem S64x1 .f32 := scM_0.view
abbrev VS_1 : View sig .tc .vmem S64x1 .f32 := scM_1.view
abbrev VS_2 : View sig .tc .vmem S64x64 .f32 := scM_2.view

def others (c : Dev nD) : sProp 𝕄 :=
  bigSepL [cc1_stg0_0, cc1_stg0_1, cc1_stg1_0, cc1_stg1_1, cc1_stg2_0, cc1_stg2_1, cc1_stg3_0, cc1_stg3_1, cc1_stg4_0, cc1_stg5_0, cc1_stg6_0, cc1_stg6_1, cc1_scratch0]
    fun b => iprop(∃ f : Buf (Elt F) ((c : Thread nD τ).loc b), ((c : Thread nD τ).loc b) ↦{fullShare} f)

theorem PhiA_eq (c : Dev nD) :
    (Pipeline.ΦA spec0 c : sProp 𝕄)
      = iprop(iprop((∃ d, owns c scM_0 fullShare d) ∗ (∃ d, owns c scM_1 fullShare d) ∗ (∃ d, owns c scM_2 fullShare d) ∗ others c) ∗ (∃ r, prngReg c r)) := by
  unfold Pipeline.ΦA others; rw [scopedRest0_eq]; simp only [scM_0, scM_1, scM_2, owns_whole]; try rfl

/-- A whole memref whose raw contents read `x` is owned at `x` (`owns`, spelt out). -/
theorem owns_unread {s : Shape} {e : EltTy} {c : Dev nD} {M : Memref sig .tc .vmem s e} (h : M.IsWhole) (x : s.Idx → Elt F e) :
    (M.view.loc c ↦[M.view.set]{fullShare} h.unread x : sProp 𝕄) ⊢ iprop(∃ f, ⌜M.view.read (Elt F) f = x⌝ ∗ M.view.loc c ↦[M.view.set]{fullShare} f) :=
  by have : (_ : sProp 𝕄) ⊢ _ := owns_intro (c : Thread nD τ) M fullShare (h.unread x); rwa [h.read_unread] at this

end Cert.Kernel.R0

end
-- ==== Proof.KBits.R0RunA.lean ====
import proofs.«170924_j68367289418164_1_alg».proof.Proof.KBits.R0Runs

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun_A (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : cond0 i) (hc1 : ¬cond1 i)
    (x0 x1 : Vec F S64x4096 .f32) (x2 : Vec F S64x1 .f32) :
    Σ' (L3 : List (View.Piece (Elt F) S1x64x1 .f32)) (L4 : List (View.Piece (Elt F) S1x64x1 .f32)) (L5 : List (View.Piece (Elt F) S1x64x64 .f32)) (LS0 : List (View.Piece (Elt F) S64x1 .f32)) (LS1 : List (View.Piece (Elt F) S64x1 .f32)), { LS2 : List (View.Piece (Elt F) S64x64 .f32) //
      ∀ (xi3 xi4 : Vec F S1x64x1 .f32) (xi5 : Vec F S1x64x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xi4 ∗ owns c arg7 fullShare xi5 ∗ (∃ d, owns c arg8 fullShare d) ∗ (∃ d, owns c arg9 fullShare d) ∗ (∃ d, owns c arg10 fullShare d)
            ∗ (iprop(owns c arg2 fullShare x0 ∗ owns c arg3 fullShare x1 ∗ owns c arg4 fullShare x2 ∗ owns c arg5 fullShare xi3 ∗ owns c arg6 fullShare xi4 ∗ owns c arg7 fullShare xi5 ∗ (∃ f, arg8.view.loc c ↦[arg8.view.set]{fullShare} arg8.view.writes (Elt F) f LS0) ∗ (∃ f, arg9.view.loc c ↦[arg9.view.set]{fullShare} arg9.view.writes (Elt F) f LS1) ∗ (∃ f, arg10.view.loc c ↦[arg10.view.set]{fullShare} arg10.view.writes (Elt F) f LS2)) -∗ K ⟨⟩))
          ⊢ wp frame (wpE (defs₀ (F := F)) Variants.none c none) E (cc0__cross_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__cross_kernel_eq_skeleton]; unfold cc0__cross_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]; · iapply owns_unread harg2 $$ H0
    isplitl [H1]; · iapply owns_unread harg3 $$ H1
    isplitl [H2]; · iapply owns_unread harg4 $$ H2
    isplitl [H3]; · iapply owns_unread harg5 $$ H3
    isplitl [H4]; · iapply owns_unread harg6 $$ H4
    isplitl [H5]; · iapply owns_unread harg7 $$ H5
    isplitl [HS0]; · iexists _; iexact HS0
    isplitl [HS1]; · iexists _; iexact HS1
    iexists _; iexact HS2

end Cert.Kernel.R0

end
-- ==== Proof.KBits.R0RunB.lean ====
import proofs.«170924_j68367289418164_1_alg».proof.Proof.KBits.R0RunA

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun_B (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬cond0 i) (hc1 : ¬cond1 i)
    (x0 x1 : Vec F S64x4096 .f32) (x2 : Vec F S64x1 .f32) (xs0 xs1 : Vec F S64x1 .f32) (xs2 : Vec F S64x64 .f32) :
    Σ' (L3 : List (View.Piece (Elt F) S1x64x1 .f32)) (L4 : List (View.Piece (Elt F) S1x64x1 .f32)) (L5 : List (View.Piece (Elt F) S1x64x64 .f32)) (LS0 : List (View.Piece (Elt F) S64x1 .f32)) (LS1 : List (View.Piece (Elt F) S64x1 .f32)), { LS2 : List (View.Piece (Elt F) S64x64 .f32) //
      ∀ (xi3 xi4 : Vec F S1x64x1 .f32) (xi5 : Vec F S1x64x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xi4 ∗ owns c arg7 fullShare xi5 ∗ owns c arg8 fullShare xs0 ∗ owns c arg9 fullShare xs1 ∗ owns c arg10 fullShare xs2
            ∗ (iprop(owns c arg2 fullShare x0 ∗ owns c arg3 fullShare x1 ∗ owns c arg4 fullShare x2 ∗ owns c arg5 fullShare xi3 ∗ owns c arg6 fullShare xi4 ∗ owns c arg7 fullShare xi5 ∗ (∃ f, arg8.view.loc c ↦[arg8.view.set]{fullShare} arg8.view.writes (Elt F) f LS0) ∗ (∃ f, arg9.view.loc c ↦[arg9.view.set]{fullShare} arg9.view.writes (Elt F) f LS1) ∗ (∃ f, arg10.view.loc c ↦[arg10.view.set]{fullShare} arg10.view.writes (Elt F) f LS2)) -∗ K ⟨⟩))
          ⊢ wp frame (wpE (defs₀ (F := F)) Variants.none c none) E (cc0__cross_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__cross_kernel_eq_skeleton]; unfold cc0__cross_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]; · iapply owns_unread harg2 $$ H0
    isplitl [H1]; · iapply owns_unread harg3 $$ H1
    isplitl [H2]; · iapply owns_unread harg4 $$ H2
    isplitl [H3]; · iapply owns_unread harg5 $$ H3
    isplitl [H4]; · iapply owns_unread harg6 $$ H4
    isplitl [H5]; · iapply owns_unread harg7 $$ H5
    isplitl [HS0]; · iexists _; iexact HS0
    isplitl [HS1]; · iexists _; iexact HS1
    iexists _; iexact HS2

end Cert.Kernel.R0

end
-- ==== Proof.KBits.R0RunC.lean ====
import proofs.«170924_j68367289418164_1_alg».proof.Proof.KBits.R0RunB

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun_C (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬cond0 i) (hc1 : cond1 i)
    (x0 x1 : Vec F S64x4096 .f32) (x2 : Vec F S64x1 .f32) (xs0 xs1 : Vec F S64x1 .f32) (xs2 : Vec F S64x64 .f32) :
    Σ' (L3 : List (View.Piece (Elt F) S1x64x1 .f32)) (L4 : List (View.Piece (Elt F) S1x64x1 .f32)) (L5 : List (View.Piece (Elt F) S1x64x64 .f32)) (LS0 : List (View.Piece (Elt F) S64x1 .f32)) (LS1 : List (View.Piece (Elt F) S64x1 .f32)), { LS2 : List (View.Piece (Elt F) S64x64 .f32) //
      ∀ (E : Set ℕ) (K : PUnit → sProp 𝕄),
        iprop(owns c arg2 fullShare x0 ∗ owns c arg3 fullShare x1 ∗ owns c arg4 fullShare x2 ∗ (∃ d, owns c arg5 fullShare d) ∗ (∃ d, owns c arg6 fullShare d) ∗ (∃ d, owns c arg7 fullShare d) ∗ owns c arg8 fullShare xs0 ∗ owns c arg9 fullShare xs1 ∗ owns c arg10 fullShare xs2
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f L4) ∗ (∃ f, arg7.view.loc c ↦[arg7.view.set]{fullShare} arg7.view.writes (Elt F) f L5) ∗ (∃ f, arg8.view.loc c ↦[arg8.view.set]{fullShare} arg8.view.writes (Elt F) f LS0) ∗ (∃ f, arg9.view.loc c ↦[arg9.view.set]{fullShare} arg9.view.writes (Elt F) f LS1) ∗ (∃ f, arg10.view.loc c ↦[arg10.view.set]{fullShare} arg10.view.writes (Elt F) f LS2)) -∗ K ⟨⟩))
          ⊢ wp frame (wpE (defs₀ (F := F)) Variants.none c none) E (cc0__cross_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__cross_kernel_eq_skeleton]; unfold cc0__cross_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]; · iapply owns_unread harg2 $$ H0
    isplitl [H1]; · iapply owns_unread harg3 $$ H1
    isplitl [H2]; · iapply owns_unread harg4 $$ H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.Kernel.R0

end
-- ==== Proof.KBits.R0Data.lean ====
import proofs.«170924_j68367289418164_1_alg».proof.Proof.KBits.R0RunC

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev runA (c : Dev nD) (t : Fin cfg0.N) (h0 : t.val % 24 = 0) (h1 : ¬t.val % 24 = 23) :=
  kernelRun_A (F := F) c (grid0.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) scM_2 (Memref.isWhole_whole _) ((hcond0 t).mpr h0) (fun h => h1 ((hcond1 t).mp h)) (iblk V c 0 t) (iblk V c 1 t) (iblk V c 2 t)
abbrev runB (c : Dev nD) (t : Fin cfg0.N) (h0 : ¬t.val % 24 = 0) (h1 : ¬t.val % 24 = 23) (xs0 xs1 : Vec F S64x1 .f32) (xs2 : Vec F S64x64 .f32) :=
  kernelRun_B (F := F) c (grid0.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) scM_2 (Memref.isWhole_whole _) (fun h => h0 ((hcond0 t).mp h)) (fun h => h1 ((hcond1 t).mp h)) (iblk V c 0 t) (iblk V c 1 t) (iblk V c 2 t) xs0 xs1 xs2
abbrev runC (c : Dev nD) (t : Fin cfg0.N) (h0 : ¬t.val % 24 = 0) (h1 : t.val % 24 = 23) (xs0 xs1 : Vec F S64x1 .f32) (xs2 : Vec F S64x64 .f32) :=
  kernelRun_C (F := F) c (grid0.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) scM_2 (Memref.isWhole_whole _) (fun h => h0 ((hcond0 t).mp h)) ((hcond1 t).mpr h1) (iblk V c 0 t) (iblk V c 1 t) (iblk V c 2 t) xs0 xs1 xs2

abbrev rd3 (L : List (View.Piece (Elt F) S1x64x1 .f32)) : Vec F S1x64x1 .f32 := VO_3.read (Elt F) (VO_3.writes (Elt F) VO_3.junk L)
abbrev rd4 (L : List (View.Piece (Elt F) S1x64x1 .f32)) : Vec F S1x64x1 .f32 := VO_4.read (Elt F) (VO_4.writes (Elt F) VO_4.junk L)
abbrev rd5 (L : List (View.Piece (Elt F) S1x64x64 .f32)) : Vec F S1x64x64 .f32 := VO_5.read (Elt F) (VO_5.writes (Elt F) VO_5.junk L)
abbrev rs0 (L : List (View.Piece (Elt F) S64x1 .f32)) : Vec F S64x1 .f32 := VS_0.read (Elt F) (VS_0.writes (Elt F) VS_0.junk L)
abbrev rs1 (L : List (View.Piece (Elt F) S64x1 .f32)) : Vec F S64x1 .f32 := VS_1.read (Elt F) (VS_1.writes (Elt F) VS_1.junk L)
abbrev rs2 (L : List (View.Piece (Elt F) S64x64 .f32)) : Vec F S64x64 .f32 := VS_2.read (Elt F) (VS_2.writes (Elt F) VS_2.junk L)

abbrev Out6 (F : FTy → Type) [FloatOps F] : Type := Vec F S1x64x1 .f32 × Vec F S1x64x1 .f32 × Vec F S1x64x64 .f32 × Vec F S64x1 .f32 × Vec F S64x1 .f32 × Vec F S64x64 .f32

def outA (c : Dev nD) (t : Fin cfg0.N) (h0 : t.val % 24 = 0) (h1 : ¬t.val % 24 = 23) : Out6 F := (rd3 (runA V c t h0 h1).1, rd4 (runA V c t h0 h1).2.1, rd5 (runA V c t h0 h1).2.2.1, rs0 (runA V c t h0 h1).2.2.2.1, rs1 (runA V c t h0 h1).2.2.2.2.1, rs2 (runA V c t h0 h1).2.2.2.2.2.1)
def outB (c : Dev nD) (t : Fin cfg0.N) (h0 : ¬t.val % 24 = 0) (h1 : ¬t.val % 24 = 23) (xs0 xs1 : Vec F S64x1 .f32) (xs2 : Vec F S64x64 .f32) : Out6 F := (rd3 (runB V c t h0 h1 xs0 xs1 xs2).1, rd4 (runB V c t h0 h1 xs0 xs1 xs2).2.1, rd5 (runB V c t h0 h1 xs0 xs1 xs2).2.2.1, rs0 (runB V c t h0 h1 xs0 xs1 xs2).2.2.2.1, rs1 (runB V c t h0 h1 xs0 xs1 xs2).2.2.2.2.1, rs2 (runB V c t h0 h1 xs0 xs1 xs2).2.2.2.2.2.1)
def outC (c : Dev nD) (t : Fin cfg0.N) (h0 : ¬t.val % 24 = 0) (h1 : t.val % 24 = 23) (xs0 xs1 : Vec F S64x1 .f32) (xs2 : Vec F S64x64 .f32) : Out6 F := (rd3 (runC V c t h0 h1 xs0 xs1 xs2).1, rd4 (runC V c t h0 h1 xs0 xs1 xs2).2.1, rd5 (runC V c t h0 h1 xs0 xs1 xs2).2.2.1, rs0 (runC V c t h0 h1 xs0 xs1 xs2).2.2.2.1, rs1 (runC V c t h0 h1 xs0 xs1 xs2).2.2.2.2.1, rs2 (runC V c t h0 h1 xs0 xs1 xs2).2.2.2.2.2.1)

def outsAt (c : Dev nD) : (n : ℕ) → n < cfg0.N → Out6 F
  | 0, hn => outA V c ⟨0, hn⟩ (Nat.zero_mod _) (by decide : ¬(0 : ℕ) % 24 = 23)
  | n + 1, hn =>
    if h0 : (n + 1) % 24 = 0 then
      if h1 : (n + 1) % 24 = 23 then False.elim (by omega)
      else outA V c ⟨n + 1, hn⟩ h0 h1
    else
      if h1 : (n + 1) % 24 = 23 then outC V c ⟨n + 1, hn⟩ h0 h1 (outsAt c n (Nat.lt_of_succ_lt hn)).2.2.2.1 (outsAt c n (Nat.lt_of_succ_lt hn)).2.2.2.2.1 (outsAt c n (Nat.lt_of_succ_lt hn)).2.2.2.2.2
      else outB V c ⟨n + 1, hn⟩ h0 h1 (outsAt c n (Nat.lt_of_succ_lt hn)).2.2.2.1 (outsAt c n (Nat.lt_of_succ_lt hn)).2.2.2.2.1 (outsAt c n (Nat.lt_of_succ_lt hn)).2.2.2.2.2

theorem outsAt_A (c : Dev nD) (t : Fin cfg0.N) (h0 : t.val % 24 = 0) (h1 : ¬t.val % 24 = 23) : outsAt V c t.val t.isLt = outA V c t h0 h1 := by
  obtain ⟨_ | n, hn⟩ := t
  · rfl
  · exact (dif_pos h0).trans (dif_neg h1)

theorem outsAt_B (c : Dev nD) (t : Fin cfg0.N) (h0 : ¬t.val % 24 = 0) (h1 : ¬t.val % 24 = 23) :
    outsAt V c t.val t.isLt = outB V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2.1 (outsAt V c (t.val - 1) (Nat.lt_of_le_of_lt (Nat.sub_le _ _) t.isLt)).2.2.2.2.2 := by
  obtain ⟨_ | n, hn⟩ := t
  · exact absurd (Nat.zero_mod _) h0
  · exact (dif_neg h0).trans (dif_neg h1)

theorem outsAt_C (c : Dev nD) (t : Fin cfg0.N) (h0 : ¬t.val % 24 = 0) (h1 : t.val % 24 = 23) :
    outsAt V c t.val t.isLt = outC V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2.1 (outsAt V c (t.val - 1) (Nat.lt_of_le_of_lt (Nat.sub_le _ _) t.isLt)).2.2.2.2.2 := by
  obtain ⟨_ | n, hn⟩ := t
  · exact absurd (Nat.zero_mod _) h0
  · exact (dif_neg h0).trans (dif_pos h1)

/-- The invariant between points: the three accumulators at the contents `o` names, beside what the body never touches. -/
def hold (c : Dev nD) (o : Out6 F) : sProp 𝕄 :=
  iprop(iprop(owns c scM_0 fullShare o.2.2.2.1 ∗ owns c scM_1 fullShare o.2.2.2.2.1 ∗ owns c scM_2 fullShare o.2.2.2.2.2 ∗ others c) ∗ (∃ r, prngReg c r))

/-- Accumulators held at named contents are held at some contents. -/
theorem hold_out (c : Dev nD) (o : Out6 F) : hold c o ⊢ Pipeline.ΦA spec0 c := by
  rw [PhiA_eq]; unfold hold
  iintro ⟨⟨HS0, HS1, HS2, Hoth⟩, Hg⟩
  iframe Hoth Hg
  isplitl [HS0]; · iexists _; iexact HS0
  isplitl [HS1]; · iexists _; iexact HS1
  iexists _; iexact HS2

def PhiS (c : Dev nD) : (n : ℕ) → n ≤ cfg0.N → sProp 𝕄
  | 0, _ => Pipeline.ΦA spec0 c
  | n + 1, hn => hold c (outsAt V c n hn)

theorem PhiS_pos (c : Dev nD) (n : ℕ) (h : n ≤ cfg0.N) (hz : n ≠ 0) : PhiS V c n h = hold c (outsAt V c (n - 1) (by omega)) := by
  obtain _ | n := n
  · exact absurd rfl hz
  · rfl

theorem PhiS_out (c : Dev nD) : ∀ n h, PhiS V c n h ⊢ Pipeline.ΦA spec0 c
  | 0, _ => .rfl
  | _ + 1, _ => hold_out c _

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2.1
    | ⟨5, _⟩ => (outsAt V c t.val t.isLt).2.2.1
  Φ t := PhiS V c t.val (Nat.le_of_lt_succ t.isLt)
  q _ := fullShare
  owed _ := 0

theorem A_eq (c : Dev nD) (w : Fin cfg0.W) : (dat V c).A w = V c (Pipeline.arrRef spec0 w) := rfl

theorem after_3 (c : Dev nD) (t : Fin cfg0.N) : (dat V c).after 3 t = (outsAt V c t.val t.isLt).1 := rfl
theorem after_4 (c : Dev nD) (t : Fin cfg0.N) : (dat V c).after 4 t = (outsAt V c t.val t.isLt).2.1 := rfl
theorem after_5 (c : Dev nD) (t : Fin cfg0.N) : (dat V c).after 5 t = (outsAt V c t.val t.isLt).2.2.1 := rfl

theorem before_0 (c : Dev nD) (t : Fin cfg0.N) (d) : (dat V c).before 0 t d = iblk V c 0 t :=
  ((dat V c).before_in_eq_fetched 0 rfl (fun _ => rfl) (fun _ _ _ => rfl) (fun _ => rfl) t d).trans rfl
theorem before_1 (c : Dev nD) (t : Fin cfg0.N) (d) : (dat V c).before 1 t d = iblk V c 1 t :=
  ((dat V c).before_in_eq_fetched 1 rfl (fun _ => rfl) (fun _ _ _ => rfl) (fun _ => rfl) t d).trans rfl
theorem before_2 (c : Dev nD) (t : Fin cfg0.N) (d) : (dat V c).before 2 t d = iblk V c 2 t :=
  ((dat V c).before_in_eq_fetched 2 rfl (fun _ => rfl) (fun _ _ _ => rfl) (fun _ => rfl) t d).trans rfl

theorem out_idle : ∀ t : Fin cfg0.N, ¬t.val % 24 = 23 → ∀ w : Fin 6, 3 ≤ w.val → idle0 w (grid0.coords t) = true ∧ (win0 w).flush t = false := by decide +kernel
theorem out_live : ∀ t : Fin cfg0.N, t.val % 24 = 23 → ∀ w : Fin 6, 3 ≤ w.val → idle0 w (grid0.coords t) = false := by decide +kernel

set_option maxHeartbeats 8000000 in
/-- One point of the grid: t mod 24 picks the case; each buffer's new contents are read off the pieces the case's run
    stores, which tile the buffer. -/
theorem body_obligation (c : Dev nD) : BodyObligation (dat (F := F) V c) (defs₀ (F := F)) Variants.none () Set.univ := fun t => by
  rw [bigSep_W0, bigSep_W0]
  dsimp only
  simp only [before_0, before_1, before_2]
  rw [show (dat V c).Φ t.castSucc = PhiS V c t.val (Nat.le_of_lt t.isLt) from rfl, show (dat V c).Φ t.succ = hold c (outsAt V c t.val t.isLt) from rfl,
    show (dat V c).owesAt () t.succ = (dat V c).owesAt () t.castSucc from rfl, show (dat V c).after 0 t = iblk V c 0 t from rfl,
    show (dat V c).after 1 t = iblk V c 1 t from rfl, show (dat V c).after 2 t = iblk V c 2 t from rfl]
  change _ ⊢ wp _ _ _ (bodyAt0 t) _
  unfold bodyAt0
  by_cases h1 : t.val % 24 = 23
  · have h0 : ¬t.val % 24 = 0 := by omega
    have hl := out_live t h1
    simp only [hl 3 (by decide), hl 4 (by decide), hl 5 (by decide)]
    rw [after_3, after_4, after_5, outsAt_C V c t h0 h1, PhiS_pos V c _ _ (fun h => h0 (by rw [h]))]
    unfold outC hold; dsimp only
    iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
    iapply ((runC V c t h0 h1 _ _ _).2.2.2.2.2.2 Set.univ _)
    iframe H0 H1 H2 HS0 HS1 HS2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩, ⟨%es0, HS0⟩, ⟨%es1, HS1⟩, ⟨%es2, HS2⟩⟩
    iframe Hoth Hg Ho H0 H1 H2
    isplitl [HS0 HS1 HS2]
    · isplitl [HS0]; · iapply (Ring.owns_of_writes_tiledL _ S64x1.size) $$ HS0; ipureintro; sl_kernel_rfl
      isplitl [HS1]; · iapply (Ring.owns_of_writes_tiledL _ S64x1.size) $$ HS1; ipureintro; sl_kernel_rfl
      iapply (Ring.owns_of_writes_tiledL _ S64x64.size) $$ HS2; ipureintro; sl_kernel_rfl
    isplitl [H3]; · iapply (Ring.owns_of_writes_tiledL _ S1x64x1.size) $$ H3; ipureintro; sl_kernel_rfl
    isplitl [H4]; · iapply (Ring.owns_of_writes_tiledL _ S1x64x1.size) $$ H4; ipureintro; sl_kernel_rfl
    iapply (Ring.owns_of_writes_tiledL _ S1x64x64.size) $$ H5; ipureintro; sl_kernel_rfl
  · have hi := out_idle t h1
    simp only [hi 3 (by decide), hi 4 (by decide), hi 5 (by decide)]
    by_cases h0 : t.val % 24 = 0
    case' pos => rw [outsAt_A V c t h0 h1]; unfold outA; refine (sep_mono_left (PhiS_out V c _ _)).trans ?_; rw [PhiA_eq]
    case' neg => rw [outsAt_B V c t h0 h1, PhiS_pos V c _ _ (fun h => h0 (by rw [h]))]; unfold outB
    all_goals
      unfold hold; dsimp only
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      first | iapply ((runA V c t h0 h1).2.2.2.2.2.2 _ _ _ Set.univ _) | iapply ((runB V c t h0 h1 _ _ _).2.2.2.2.2.2 _ _ _ Set.univ _)
      iframe H0 H1 H2 H3 H4 H5 HS0 HS1 HS2
      iintro ⟨H0, H1, H2, H3, H4, H5, ⟨%es0, HS0⟩, ⟨%es1, HS1⟩, ⟨%es2, HS2⟩⟩
      iframe Hoth Hg Ho H0 H1 H2
      isplitl [HS0 HS1 HS2]
      · isplitl [HS0]; · iapply (Ring.owns_of_writes_tiledL _ S64x1.size) $$ HS0; ipureintro; sl_kernel_rfl
        isplitl [HS1]; · iapply (Ring.owns_of_writes_tiledL _ S64x1.size) $$ HS1; ipureintro; sl_kernel_rfl
        iapply (Ring.owns_of_writes_tiledL _ S64x64.size) $$ HS2; ipureintro; sl_kernel_rfl
      isplitl [H3]; · iexists _; iexact H3
      isplitl [H4]; · iexists _; iexact H4
      iexists _; iexact H5

theorem hin (c : Dev nD) : Pipeline.ΦA spec0 c ⊢ (dat V c).Φ 0 := (.rfl : _ ⊢ PhiS V c 0 (Nat.zero_le _))

theorem hout (c : Dev nD) : (dat V c).Φ (Fin.last cfg0.N) ⊢ Pipeline.ΦA spec0 c := (PhiS_out V c _ _ : PhiS V c cfg0.N le_rfl ⊢ _)

end Cert.Kernel.R0

end
-- ==== Proof.KBits.R1Runs.lean ====
import proofs.«170924_j68367289418164_1_alg».proof.Proof.Gen.Kernel.Launch
import proofs.«170924_j68367289418164_1_alg».proof.Proof.Gen.Kernel.Skeleton
import proofs.«170924_j68367289418164_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Window `w`'s block at point `t`, read off its array at the region-entry contents `V`. -/
def iblk (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 24 = 0 :=
  (by decide +kernel : ∀ t : Fin grid1.N, cond1_0 (grid1.coords t) ↔ t.val % 24 = 0)

abbrev cond1_1 (i : grid1.Coords) : Prop := k1_cond2 i = 1#1
theorem hcond1_1 : ∀ t : Fin cfg1.N, cond1_1 (grid1.coords t) ↔ t.val % 24 = 23 :=
  (by decide +kernel : ∀ t : Fin grid1.N, cond1_1 (grid1.coords t) ↔ t.val % 24 = 23)

theorem idle1_6 : ∀ t : Fin cfg1.N, t.val % 24 ≠ 23 → cfg1.idle 6 (grid1.coords t) = true ∧ (cfg1.win 6).flush t = false := by decide +kernel
theorem live1_6 : ∀ t : Fin cfg1.N, t.val % 24 = 23 → cfg1.idle 6 (grid1.coords t) = false := by decide +kernel

abbrev VO1_6 : View sig .tc .vmem S1x1x1 .f32 := (Memref.whole cc1_stg6_0 : Memref sig .tc .vmem S1x1x1 .f32).view
abbrev ms1_0 (t : Fin cfg1.N) : Memref sig .tc .vmem S64x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1 .f32 := win1_6.stage (cfg1.slots t 6)
abbrev hs1_6 (t : Fin cfg1.N) : (ms1_6 t).IsWhole := hstage1_6 ((cfg1.slots t 6).cast nbuf1_6)
abbrev scM1_0 : Memref sig .tc .vmem S1x1 .f32 := Memref.whole cc1_scratch0
abbrev VS1_0 : View sig .tc .vmem S1x1 .f32 := scM1_0.view

theorem eq_of_entails {P Q : sProp 𝕄} (h₁ : P ⊢ Q) (h₂ : Q ⊢ P) : P = Q := BI.equiv_iff.mp ⟨h₁, h₂⟩

/-- A whole memref read at `X` holds exactly the raw contents that read `X`. -/
theorem owns_eq_unread (c : Dev nD) {sp : Space} {sh : Shape} {e : EltTy} {m : Memref sig .tc sp sh e} (h : m.IsWhole)
    (q : PosShare TreeShare) (X : sh.Idx → Elt F e) :
    (owns (c : Thread nD τ) m q X : sProp 𝕄) = (m.view.loc (c : Thread nD τ) ↦[m.view.set]{q} h.unread X) := by
  unfold owns
  refine eq_of_entails ?_ ?_
  · iintro ⟨%f, %hf, H⟩; obtain rfl := h.eq_unread hf; iexact H
  · iintro H; iexists _; isplitr; · ipureintro; exact h.read_unread _
    iexact H

/-- Pieces that cover a memref's shape leave it owned at their read-back over any base contents. -/
theorem owns_writes (c : Dev nD) {sp : Space} {sh : Shape} {e : EltTy} (m : Memref sig .tc sp sh e) (q : PosShare TreeShare)
    (v' : View sig .tc sp sh e) (f' : v'.ty.Contents (Elt F)) (L : List (View.Piece (Elt F) sh e)) (h : ∀ y, ∃ p ∈ L, y ∈ p.1.set) :
    iprop(∃ f, m.view.loc (c : Thread nD τ) ↦[m.view.set]{q} m.view.writes (Elt F) f L)
      ⊢ (owns (c : Thread nD τ) m q (v'.read (Elt F) (v'.writes (Elt F) f' L)) : sProp 𝕄) := by
  unfold owns; iintro ⟨%f, H⟩; iexists (m.view.writes (Elt F) f L); isplitr; · ipureintro; exact View.read_writes_of_cover _ _ _ _ _ h
  iexact H

/-- Every scoped buffer the body does not touch, unopened. -/
def Rest1 (c : Dev nD) : sProp 𝕄 := Pipeline.scopedRestBut (Ix := Unit) (Name := ℕ) (U := UR sig nD τ) (Lvl := ℕ) (Val := Elt F) spec1 c [cc1_scratch0]

/-- The class's invariant: the accumulator at some contents, those buffers, the generator register at some state. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA Rest1
  rw [Pipeline.scopedRest_split_of_list spec1 c [cc1_scratch0] (by decide) (by decide)]
  simp only [bigSepL_singleton, scM1_0, owns_whole]; rfl

end Cert.Kernel.R1

end
-- ==== Proof.KBits.R1RunA.lean ====
import proofs.«170924_j68367289418164_1_alg».proof.Proof.KBits.R1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S1x1 .f32) (harg9 : arg9.IsWhole) (hc0 : cond1_0 i) (hc1 : ¬cond1_1 i)
    (x0 : Vec F S64x4096 .f32) (x1 : Vec F S64x4096 .f32) (x2 : Vec F S64x4096 .f32) (x3 : Vec F S64x4096 .f32) (x4 : Vec F S64x1 .f32) (x5 : Vec F S64x64 .f32) :
    Σ' (L6 : List (View.Piece (Elt F) S1x1x1 .f32)), { LS0 : List (View.Piece (Elt F) S1x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__mix_loss_kernel i arg2 harg2 arg3 harg3 arg4 harg4 arg5 harg5 arg6 harg6 arg7 harg7 arg8 harg8 arg9 harg9) K } := by
  refine ⟨[], ?_, fun xi6 E K => ?run⟩
  case run =>
    simp only [cc1__mix_loss_kernel_eq_skeleton]; unfold cc1__mix_loss_kernel_skel
    simp only [k1_part1_eq_skeleton, owns_eq_unread c, harg2, harg3, harg4, harg5, harg6, harg7, harg8, harg9]
    iintro ⟨H0, H1, H2, H3, H4, H5, H6, ⟨%d, HS0⟩, Hk⟩
    sl_exec (disch := first | exact hc0 | exact hc1)
    sl_step
    iapply Hk
    iframe H0 H1 H2 H3 H4 H5 H6
    iexists _; iexact HS0

end Cert.Kernel.R1

end
-- ==== Proof.KBits.R1RunB.lean ====
import proofs.«170924_j68367289418164_1_alg».proof.Proof.KBits.R1RunA

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S1x1 .f32) (harg9 : arg9.IsWhole) (hc0 : ¬cond1_0 i) (hc1 : ¬cond1_1 i)
    (x0 : Vec F S64x4096 .f32) (x1 : Vec F S64x4096 .f32) (x2 : Vec F S64x4096 .f32) (x3 : Vec F S64x4096 .f32) (x4 : Vec F S64x1 .f32) (x5 : Vec F S64x64 .f32) (xs0 : Vec F S1x1 .f32) :
    Σ' (L6 : List (View.Piece (Elt F) S1x1x1 .f32)), { LS0 : List (View.Piece (Elt F) S1x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__mix_loss_kernel i arg2 harg2 arg3 harg3 arg4 harg4 arg5 harg5 arg6 harg6 arg7 harg7 arg8 harg8 arg9 harg9) K } := by
  refine ⟨[], ?_, fun xi6 E K => ?run⟩
  case run =>
    simp only [cc1__mix_loss_kernel_eq_skeleton]; unfold cc1__mix_loss_kernel_skel
    simp only [k1_part1_eq_skeleton, owns_eq_unread c, harg2, harg3, harg4, harg5, harg6, harg7, harg8, harg9]
    iintro ⟨H0, H1, H2, H3, H4, H5, H6, HS0, Hk⟩
    sl_exec (disch := first | exact hc0 | exact hc1)
    sl_step
    iapply Hk
    iframe H0 H1 H2 H3 H4 H5 H6
    iexists _; iexact HS0

end Cert.Kernel.R1

end
-- ==== Proof.KBits.R1RunC.lean ====
import proofs.«170924_j68367289418164_1_alg».proof.Proof.KBits.R1RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S1x1 .f32) (harg9 : arg9.IsWhole) (hc0 : ¬cond1_0 i) (hc1 : cond1_1 i)
    (x0 : Vec F S64x4096 .f32) (x1 : Vec F S64x4096 .f32) (x2 : Vec F S64x4096 .f32) (x3 : Vec F S64x4096 .f32) (x4 : Vec F S64x1 .f32) (x5 : Vec F S64x64 .f32) (xs0 : Vec F S1x1 .f32) :
    Σ' (L6 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__mix_loss_kernel i arg2 harg2 arg3 harg3 arg4 harg4 arg5 harg5 arg6 harg6 arg7 harg7 arg8 harg8 arg9 harg9) K } := by
  refine ⟨?_, ?_, fun E K => ?run⟩
  case run =>
    simp only [cc1__mix_loss_kernel_eq_skeleton]; unfold cc1__mix_loss_kernel_skel
    simp only [k1_part1_eq_skeleton, owns_eq_unread c, harg2, harg3, harg4, harg5, harg6, harg7, harg8, harg9]
    iintro ⟨H0, H1, H2, H3, H4, H5, ⟨%d, H6⟩, HS0, Hk⟩
    sl_exec (disch := first | exact hc0 | exact hc1)
    sl_step
    iapply Hk
    iframe H0 H1 H2 H3 H4 H5
    isplitl [H6]; · iexists _; iexact H6
    iexists _; iexact HS0

end Cert.Kernel.R1

end
-- ==== Proof.KBits.R1Data.lean ====
import proofs.«170924_j68367289418164_1_alg».proof.Proof.KBits.R1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Run
variable (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S1x1 .f32) (harg9 : arg9.IsWhole)

section A
variable (hc0 : cond1_0 i) (hc1 : ¬cond1_1 i) (x0 x1 x2 x3 : Vec F S64x4096 .f32) (x4 : Vec F S64x1 .f32) (x5 : Vec F S64x64 .f32)

/-- Case A stores nothing into output 6: a placeholder (no pieces over junk) that nothing consults. -/
def out1_A_6 : Vec F S1x1x1 .f32 := VO1_6.read (Elt F) (VO1_6.writes (Elt F) VO1_6.junk (kernelRun1_A c i _ harg2 _ harg3 _ harg4 _ harg5 _ harg6 _ harg7 _ harg8 _ harg9 hc0 hc1 x0 x1 x2 x3 x4 x5).1)

/-- Each case's stores into the accumulator are of the whole (1,1) buffer, so its pieces cover it. -/
theorem scover1_A_0 (y : S1x1.Idx) : ∃ pc ∈ (kernelRun1_A c i _ harg2 _ harg3 _ harg4 _ harg5 _ harg6 _ harg7 _ harg8 _ harg9 hc0 hc1 x0 x1 x2 x3 x4 x5).2.1, y ∈ pc.1.set :=
  View.cover_of_tiledL _ S1x1.size (by sl_kernel_rfl) y

/-- What each case leaves in the accumulator: its pieces read back over junk. -/
def sout1_A_0 : Vec F S1x1 .f32 := VS1_0.read (Elt F) (VS1_0.writes (Elt F) VS1_0.junk (kernelRun1_A c i _ harg2 _ harg3 _ harg4 _ harg5 _ harg6 _ harg7 _ harg8 _ harg9 hc0 hc1 x0 x1 x2 x3 x4 x5).2.1)

end A

section B
variable (hc0 : ¬cond1_0 i) (hc1 : ¬cond1_1 i) (x0 x1 x2 x3 : Vec F S64x4096 .f32) (x4 : Vec F S64x1 .f32) (x5 : Vec F S64x64 .f32) (xs0 : Vec F S1x1 .f32)

def out1_B_6 : Vec F S1x1x1 .f32 := VO1_6.read (Elt F) (VO1_6.writes (Elt F) VO1_6.junk (kernelRun1_B c i _ harg2 _ harg3 _ harg4 _ harg5 _ harg6 _ harg7 _ harg8 _ harg9 hc0 hc1 x0 x1 x2 x3 x4 x5 xs0).1)

theorem scover1_B_0 (y : S1x1.Idx) : ∃ pc ∈ (kernelRun1_B c i _ harg2 _ harg3 _ harg4 _ harg5 _ harg6 _ harg7 _ harg8 _ harg9 hc0 hc1 x0 x1 x2 x3 x4 x5 xs0).2.1, y ∈ pc.1.set :=
  View.cover_of_tiledL _ S1x1.size (by sl_kernel_rfl) y

def sout1_B_0 : Vec F S1x1 .f32 := VS1_0.read (Elt F) (VS1_0.writes (Elt F) VS1_0.junk (kernelRun1_B c i _ harg2 _ harg3 _ harg4 _ harg5 _ harg6 _ harg7 _ harg8 _ harg9 hc0 hc1 x0 x1 x2 x3 x4 x5 xs0).2.1)

end B

section C
variable (hc0 : ¬cond1_0 i) (hc1 : cond1_1 i) (x0 x1 x2 x3 : Vec F S64x4096 .f32) (x4 : Vec F S64x1 .f32) (x5 : Vec F S64x64 .f32) (xs0 : Vec F S1x1 .f32)

/-- Case C's one store into output 6 is of its whole (1,1,1) block. -/
theorem cover1_C_6 (y : S1x1x1.Idx) : ∃ pc ∈ (kernelRun1_C c i _ harg2 _ harg3 _ harg4 _ harg5 _ harg6 _ harg7 _ harg8 _ harg9 hc0 hc1 x0 x1 x2 x3 x4 x5 xs0).1, y ∈ pc.1.set :=
  View.cover_of_tiledL _ S1x1x1.size (by sl_kernel_rfl) y

def out1_C_6 : Vec F S1x1x1 .f32 := VO1_6.read (Elt F) (VO1_6.writes (Elt F) VO1_6.junk (kernelRun1_C c i _ harg2 _ harg3 _ harg4 _ harg5 _ harg6 _ harg7 _ harg8 _ harg9 hc0 hc1 x0 x1 x2 x3 x4 x5 xs0).1)

theorem scover1_C_0 (y : S1x1.Idx) : ∃ pc ∈ (kernelRun1_C c i _ harg2 _ harg3 _ harg4 _ harg5 _ harg6 _ harg7 _ harg8 _ harg9 hc0 hc1 x0 x1 x2 x3 x4 x5 xs0).2.1, y ∈ pc.1.set :=
  View.cover_of_tiledL _ S1x1.size (by sl_kernel_rfl) y

def sout1_C_0 : Vec F S1x1 .f32 := VS1_0.read (Elt F) (VS1_0.writes (Elt F) VS1_0.junk (kernelRun1_C c i _ harg2 _ harg3 _ harg4 _ harg5 _ harg6 _ harg7 _ harg8 _ harg9 hc0 hc1 x0 x1 x2 x3 x4 x5 xs0).2.1)

end C

end Run

section Region
variable (V : (c : Dev nD) → (b : Ref sig .tc) → Buf (Elt F) ((c : Thread nD τ).loc b))

/-- What output 6's buffer and the accumulator hold after position `n`: the case `n % 24` selects, the accumulator read at what `n - 1` left. -/
def outsAt (c : Dev nD) : (n : ℕ) → n < cfg1.N → Vec F S1x1x1 .f32 × Vec F S1x1 .f32
  | 0, hn => (out1_A_6 c _ _ (hs1_0 ⟨0, hn⟩) _ (hs1_1 ⟨0, hn⟩) _ (hs1_2 ⟨0, hn⟩) _ (hs1_3 ⟨0, hn⟩) _ (hs1_4 ⟨0, hn⟩) _ (hs1_5 ⟨0, hn⟩) _ (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout1_A_0 c _ _ (hs1_0 ⟨0, hn⟩) _ (hs1_1 ⟨0, hn⟩) _ (hs1_2 ⟨0, hn⟩) _ (hs1_3 ⟨0, hn⟩) _ (hs1_4 ⟨0, hn⟩) _ (hs1_5 ⟨0, hn⟩) _ (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 24 = 0 then
      if h1 : (n + 1) % 24 = 23 then
        False.elim (by omega)
      else
        (out1_A_6 c _ _ (hs1_0 ⟨n + 1, hn⟩) _ (hs1_1 ⟨n + 1, hn⟩) _ (hs1_2 ⟨n + 1, hn⟩) _ (hs1_3 ⟨n + 1, hn⟩) _ (hs1_4 ⟨n + 1, hn⟩) _ (hs1_5 ⟨n + 1, hn⟩) _ (hs1_6 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout1_A_0 c _ _ (hs1_0 ⟨n + 1, hn⟩) _ (hs1_1 ⟨n + 1, hn⟩) _ (hs1_2 ⟨n + 1, hn⟩) _ (hs1_3 ⟨n + 1, hn⟩) _ (hs1_4 ⟨n + 1, hn⟩) _ (hs1_5 ⟨n + 1, hn⟩) _ (hs1_6 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      if h1 : (n + 1) % 24 = 23 then
        (out1_C_6 c _ _ (hs1_0 ⟨n + 1, hn⟩) _ (hs1_1 ⟨n + 1, hn⟩) _ (hs1_2 ⟨n + 1, hn⟩) _ (hs1_3 ⟨n + 1, hn⟩) _ (hs1_4 ⟨n + 1, hn⟩) _ (hs1_5 ⟨n + 1, hn⟩) _ (hs1_6 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2, sout1_C_0 c _ _ (hs1_0 ⟨n + 1, hn⟩) _ (hs1_1 ⟨n + 1, hn⟩) _ (hs1_2 ⟨n + 1, hn⟩) _ (hs1_3 ⟨n + 1, hn⟩) _ (hs1_4 ⟨n + 1, hn⟩) _ (hs1_5 ⟨n + 1, hn⟩) _ (hs1_6 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2)
      else
        (out1_B_6 c _ _ (hs1_0 ⟨n + 1, hn⟩) _ (hs1_1 ⟨n + 1, hn⟩) _ (hs1_2 ⟨n + 1, hn⟩) _ (hs1_3 ⟨n + 1, hn⟩) _ (hs1_4 ⟨n + 1, hn⟩) _ (hs1_5 ⟨n + 1, hn⟩) _ (hs1_6 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2, sout1_B_0 c _ _ (hs1_0 ⟨n + 1, hn⟩) _ (hs1_1 ⟨n + 1, hn⟩) _ (hs1_2 ⟨n + 1, hn⟩) _ (hs1_3 ⟨n + 1, hn⟩) _ (hs1_4 ⟨n + 1, hn⟩) _ (hs1_5 ⟨n + 1, hn⟩) _ (hs1_6 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2)

theorem outsAt_A (c : Dev nD) (t : Fin cfg1.N) (h0 : t.val % 24 = 0) (h1 : ¬t.val % 24 = 23) :
    outsAt V c t.val t.isLt = (out1_A_6 c _ _ (hs1_0 t) _ (hs1_1 t) _ (hs1_2 t) _ (hs1_3 t) _ (hs1_4 t) _ (hs1_5 t) _ (hs1_6 t) scM1_0 (Memref.isWhole_whole _) ((hcond1_0 t).mpr h0) (fun h => h1 ((hcond1_1 t).mp h)) (iblk V c 0 t) (iblk V c 1 t) (iblk V c 2 t) (iblk V c 3 t) (iblk V c 4 t) (iblk V c 5 t), sout1_A_0 c _ _ (hs1_0 t) _ (hs1_1 t) _ (hs1_2 t) _ (hs1_3 t) _ (hs1_4 t) _ (hs1_5 t) _ (hs1_6 t) scM1_0 (Memref.isWhole_whole _) ((hcond1_0 t).mpr h0) (fun h => h1 ((hcond1_1 t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans ((dif_neg h1).trans rfl)

theorem outsAt_B (c : Dev nD) (t : Fin cfg1.N) (h0 : ¬t.val % 24 = 0) (h1 : ¬t.val % 24 = 23) :
    outsAt V c t.val t.isLt = (out1_B_6 c _ _ (hs1_0 t) _ (hs1_1 t) _ (hs1_2 t) _ (hs1_3 t) _ (hs1_4 t) _ (hs1_5 t) _ (hs1_6 t) scM1_0 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2, sout1_B_0 c _ _ (hs1_0 t) _ (hs1_1 t) _ (hs1_2 t) _ (hs1_3 t) _ (hs1_4 t) _ (hs1_5 t) _ (hs1_6 t) scM1_0 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 24 = 0) (h1 : t.val % 24 = 23) :
    outsAt V c t.val t.isLt = (out1_C_6 c _ _ (hs1_0 t) _ (hs1_1 t) _ (hs1_2 t) _ (hs1_3 t) _ (hs1_4 t) _ (hs1_5 t) _ (hs1_6 t) scM1_0 (Memref.isWhole_whole _) (fun h => h0 ((hcond1_0 t).mp h)) ((hcond1_1 t).mpr h1) (iblk V c 0 t) (iblk V c 1 t) (iblk V c 2 t) (iblk V c 3 t) (iblk V c 4 t) (iblk V c 5 t) (outsAt V c (t.val - 1) (Nat.lt_of_le_of_lt (Nat.sub_le _ _) t.isLt)).2, sout1_C_0 c _ _ (hs1_0 t) _ (hs1_1 t) _ (hs1_2 t) _ (hs1_3 t) _ (hs1_4 t) _ (hs1_5 t) _ (hs1_6 t) scM1_0 (Memref.isWhole_whole _) (fun h => h0 ((hcond1_0 t).mp h)) ((hcond1_1 t).mpr h1) (iblk V c 0 t) (iblk V c 1 t) (iblk V c 2 t) (iblk V c 3 t) (iblk V c 4 t) (iblk V c 5 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: the class's at 0; afterwards the accumulator at what the point before left. -/
def PhiS (c : Dev nD) : (n : ℕ) → n ≤ cfg1.N → sProp 𝕄
  | 0, _ => Pipeline.ΦA spec1 c
  | n + 1, hn => iprop(iprop(owns (c : Thread nD τ) scM1_0 fullShare ((outsAt V c n hn).2) ∗ Rest1 c) ∗ (∃ r, prngReg c r))

theorem PhiS_pos (c : Dev nD) (n : ℕ) (h : n ≤ cfg1.N) (hz : n ≠ 0) :
    PhiS V c n h = iprop(iprop(owns (c : Thread nD τ) scM1_0 fullShare ((outsAt V c (n - 1) (by omega)).2) ∗ Rest1 c) ∗ (∃ r, prngReg c r)) := by
  cases n with
  | zero => exact absurd rfl hz
  | succ n => rfl

/-- At any position the invariant gives the class's: the accumulator's named contents are forgotten. -/
theorem PhiS_any (c : Dev nD) (n : ℕ) (h : n ≤ cfg1.N) :
    PhiS V c n h ⊢ iprop(iprop((∃ d, owns (c : Thread nD τ) scM1_0 fullShare d) ∗ Rest1 c) ∗ (∃ r, prngReg c r)) := by
  by_cases hz : n = 0
  · subst hz; exact Entails.of_eq (PhiA1_eq c)
  · rw [PhiS_pos V c n h hz]; iintro ⟨⟨HS, HR⟩, Hg⟩; iframe HR Hg; iexists _; iexact HS

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := rfl

theorem after_6 (c : Dev nD) (t : Fin cfg1.N) : (dat V c).after 6 t = (outsAt V c t.val t.isLt).1 := rfl

theorem before1_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before1_1 (c : Dev nD) (t : Fin cfg1.N) (d) : (dat V c).before 1 t d = iblk V c 1 t :=
  ((dat V c).before_in_eq_fetched 1 rfl (fun _ => rfl) (fun _ _ _ => rfl) (fun _ => rfl) t d).trans rfl
theorem before1_2 (c : Dev nD) (t : Fin cfg1.N) (d) : (dat V c).before 2 t d = iblk V c 2 t :=
  ((dat V c).before_in_eq_fetched 2 rfl (fun _ => rfl) (fun _ _ _ => rfl) (fun _ => rfl) t d).trans rfl
theorem before1_3 (c : Dev nD) (t : Fin cfg1.N) (d) : (dat V c).before 3 t d = iblk V c 3 t :=
  ((dat V c).before_in_eq_fetched 3 rfl (fun _ => rfl) (fun _ _ _ => rfl) (fun _ => rfl) t d).trans rfl
theorem before1_4 (c : Dev nD) (t : Fin cfg1.N) (d) : (dat V c).before 4 t d = iblk V c 4 t :=
  ((dat V c).before_in_eq_fetched 4 rfl (fun _ => rfl) (fun _ _ _ => rfl) (fun _ => rfl) t d).trans rfl
theorem before1_5 (c : Dev nD) (t : Fin cfg1.N) (d) : (dat V c).before 5 t d = iblk V c 5 t :=
  ((dat V c).before_in_eq_fetched 5 rfl (fun _ => rfl) (fun _ _ _ => rfl) (fun _ => rfl) t d).trans rfl

/-- What the body is called with at point `t`, -/
def bodyPre (c : Dev nD) (t : Fin cfg1.N) : sProp 𝕄 :=
  iprop(PhiS V c t.val (Nat.le_of_lt t.isLt) ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d)))

/-- and what it returns: the inputs as found, the accumulator at this point's contents. -/
def bodyPost (c : Dev nD) (t : Fin cfg1.N) : sProp 𝕄 :=
  iprop(iprop(iprop(owns (c : Thread nD τ) scM1_0 fullShare ((outsAt V c t.val t.isLt).2) ∗ Rest1 c) ∗ (∃ r, prngReg c r)) ∗ (dat V c).owesAt () t.castSucc
    ∗ owns (c : Thread nD τ) (ms1_0 t) fullShare (iblk V c 0 t)
    ∗ owns (c : Thread nD τ) (ms1_1 t) fullShare (iblk V c 1 t)
    ∗ owns (c : Thread nD τ) (ms1_2 t) fullShare (iblk V c 2 t)
    ∗ owns (c : Thread nD τ) (ms1_3 t) fullShare (iblk V c 3 t)
    ∗ owns (c : Thread nD τ) (ms1_4 t) fullShare (iblk V c 4 t)
    ∗ owns (c : Thread nD τ) (ms1_5 t) fullShare (iblk V c 5 t)
    ∗ (dat V c).leavesExact 6 t)

set_option maxHeartbeats 8000000 in
/-- The body at any point: `t % 24` says which case; the accumulator is taken at what the point before left (anything at a reset) and handed back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  by_cases h1 : t.val % 24 = 23
  · have h0 : ¬t.val % 24 = 0 := by omega
    rw [show (dat V c).leavesExact 6 t = owns (c : Thread nD τ) (ms1_6 t) fullShare ((dat V c).after 6 t) from by
      unfold Dat.leavesExact; rw [live1_6 t h1], after_6, outsAt_C V c t h0 h1, PhiS_pos V c t.val _ (by omega)]
    unfold out1_C_6 sout1_C_0; dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_C c (grid1.coords t) _ _ _ _ _ _ _ _ _ _ _ _ _ _ _ _ (mt (hcond1_0 t).mp h0) ((hcond1_1 t).mpr h1) (iblk V c 0 t) (iblk V c 1 t) (iblk V c 2 t) (iblk V c 3 t) (iblk V c 4 t) (iblk V c 5 t) _).2.2 Set.univ _)
    iframe H0 H1 H2 H3 H4 H5 HS0
    isplitl [H6]; · iexists _; iexact H6
    iintro ⟨H0, H1, H2, H3, H4, H5, H6, HS0⟩
    iframe HR Hg Ho H0 H1 H2 H3 H4 H5
    isplitl [HS0]
    · iapply owns_writes c _ _ _ _ _ (scover1_C_0 c _ _ _ _ _ _ _ _ _ _ _ _ _ _ _ _ _ _ _ _ _ _ _ _ _ _); iexact HS0
    iapply owns_writes c _ _ _ _ _ (cover1_C_6 c _ _ _ _ _ _ _ _ _ _ _ _ _ _ _ _ _ _ _ _ _ _ _ _ _ _); iexact H6
  · rw [Dat.leavesExact_idle (dat V c) 6 t (idle1_6 t h1).1 (idle1_6 t h1).2]
    by_cases h0 : t.val % 24 = 0
    · rw [outsAt_A V c t h0 h1]
      unfold sout1_A_0; dsimp only
      refine (sep_mono_left (PhiS_any V c _ _)).trans ?_
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (mt (hcond1_1 t).mp h1) (iblk V c 0 t) (iblk V c 1 t) (iblk V c 2 t) (iblk V c 3 t) (iblk V c 4 t) (iblk V c 5 t)).2.2 _ Set.univ _)
      iframe H0 H1 H2 H3 H4 H5 H6 HS0
      iintro ⟨H0, H1, H2, H3, H4, H5, H6, HS0⟩
      iframe HR Hg Ho H0 H1 H2 H3 H4 H5
      isplitl [HS0]
      · iapply owns_writes c _ _ _ _ _ (scover1_A_0 c _ _ _ _ _ _ _ _ _ _ _ _ _ _ _ _ _ _ _ _ _ _ _ _ _); iexact HS0
      iexists _; iexact H6
    · rw [outsAt_B V c t h0 h1, PhiS_pos V c t.val _ (by omega)]
      unfold sout1_B_0; dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (mt (hcond1_0 t).mp h0) (mt (hcond1_1 t).mp h1) (iblk V c 0 t) (iblk V c 1 t) (iblk V c 2 t) (iblk V c 3 t) (iblk V c 4 t) (iblk V c 5 t) _).2.2 _ Set.univ _)
      iframe H0 H1 H2 H3 H4 H5 H6 HS0
      iintro ⟨H0, H1, H2, H3, H4, H5, H6, HS0⟩
      iframe HR Hg Ho H0 H1 H2 H3 H4 H5
      isplitl [HS0]
      · iapply owns_writes c _ _ _ _ _ (scover1_B_0 c _ _ _ _ _ _ _ _ _ _ _ _ _ _ _ _ _ _ _ _ _ _ _ _ _ _); iexact HS0
      iexists _; iexact H6

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := .rfl

theorem hout (c : Dev nD) : (dat V c).Φ (Fin.last cfg1.N) ⊢ Pipeline.ΦA spec1 c :=
  (PhiS_any V c cfg1.N le_rfl).trans (Entails.of_eq (PhiA1_eq c).symm)

end Region

end Cert.Kernel.R1

end
-- ==== Proof.KBits.Run.lean ====
import proofs.«170924_j68367289418164_1_alg».proof.Proof.KBits.R0Data
import proofs.«170924_j68367289418164_1_alg».proof.Proof.KBits.R1Data
import proofs.«170924_j68367289418164_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E0 (c : Dev nD) (b : Ref sig .tc) : Buf (Elt F) ((c : Thread nD τ).loc b) := V1 m c b
def X2 (c : Dev nD) : Valuation τ sig (Elt F) :=
  Pipeline.withArrays spec0 c (V1 m c) fun w => (R0.dat (E0 m) c).arrAt w cfg0.N
def outs2 : Outs (F := F) := fun _ r c => X2 m c r
abbrev E1 (c : Dev nD) (b : Ref sig .tc) : Buf (Elt F) ((c : Thread nD τ).loc b) := V3 m (outs2 m) c b
def X4 (c : Dev nD) : Valuation τ sig (Elt F) :=
  Pipeline.withArrays spec1 c (V3 m (outs2 m) c) fun w => (R1.dat (E1 m) c).arrAt w cfg1.N
def outs : Outs (F := F) := fun J r c => match J with | 2 => X2 m c r | _ => X4 m c r

abbrev F0 (c : Dev nD) (b : Ref sig .tc) : Buf (Elt F) ((c : Thread nD τ).loc b) := V2 m (outs m) c b
abbrev F1 (c : Dev nD) (b : Ref sig .tc) : Buf (Elt F) ((c : Thread nD τ).loc b) := V4 m (outs m) c b

theorem X2_arr (c : Dev nD) (w : Fin cfg0.W) :
    X2 m c (Proc.devRef .tc (Pipeline.arrRef spec0 w)) = (R0.dat (E0 m) c).arrAt w cfg0.N := by
  unfold X2; exact Pipeline.withArrays_arr spec0 launch0.win.arr_inj c _ _ w
theorem X4_arr (c : Dev nD) (w : Fin cfg1.W) :
    X4 m c (Proc.devRef .tc (Pipeline.arrRef spec1 w)) = (R1.dat (E1 m) c).arrAt w cfg1.N := by
  unfold X4; exact Pipeline.withArrays_arr spec1 launch1.win.arr_inj c _ _ w

theorem F0_out0 (c : Dev nD) : F0 m c main_v7_0 = (R0.dat (E0 m) c).arrAt 3 cfg0.N := by
  refine .trans ?_ (X2_arr m c 3)
  simp (disch := (apply StableHlo.devRef_ne_of_ne; decide)) only [F0, V2, Function.update_of_ne, Function.update_self]
  rfl
theorem F0_out1 (c : Dev nD) : F0 m c main_v7_1 = (R0.dat (E0 m) c).arrAt 4 cfg0.N := by
  refine .trans ?_ (X2_arr m c 4)
  simp (disch := (apply StableHlo.devRef_ne_of_ne; decide)) only [F0, V2, Function.update_of_ne, Function.update_self]
  rfl
theorem F0_out2 (c : Dev nD) : F0 m c main_v7_2 = (R0.dat (E0 m) c).arrAt 5 cfg0.N := by
  refine .trans ?_ (X2_arr m c 5)
  simp only [F0, V2, Function.update_self]
  rfl
theorem F1_out (c : Dev nD) : F1 m c main_v44 = (R1.dat (E1 m) c).arrAt 6 cfg1.N := by
  refine .trans ?_ (X4_arr m c 6)
  simp only [F1, V4, Function.update_self]
  rfl

theorem hF0 (c : Dev nD) (w : Fin cfg0.W) : (R0.dat (E0 m) c).arrAt w cfg0.N = F0 m c (Pipeline.arrRef spec0 w) :=
  have hi (w : Fin cfg0.W) (hw) (h) := ((R0.dat (E0 m) c).arrAt_in w hw _).trans
    ((R0.A_eq (E0 m) c w).trans (V2_of m (outs m) c (Pipeline.arrRef spec0 w) h).symm)
  match w with
  | ⟨0, _⟩ => hi 0 rfl (by decide)
  | ⟨1, _⟩ => hi 1 rfl (by decide)
  | ⟨2, _⟩ => hi 2 rfl (by decide)
  | ⟨3, _⟩ => (F0_out0 m c).symm
  | ⟨4, _⟩ => (F0_out1 m c).symm
  | ⟨5, _⟩ => (F0_out2 m c).symm
theorem hrest0 (c : Dev nD) : ∀ b, b ∉ Finset.univ.image (Pipeline.arrRef spec0) → F0 m c b = E0 m c b :=
  fun b hb => V2_of m (outs m) c b (by
    intro h
    simp only [List.mem_cons, List.mem_nil_iff, or_false] at h
    rcases h with rfl | rfl | rfl
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩))

theorem hF1 (c : Dev nD) (w : Fin cfg1.W) : (R1.dat (E1 m) c).arrAt w cfg1.N = F1 m c (Pipeline.arrRef spec1 w) :=
  have hi (w : Fin cfg1.W) (hw) (h) := ((R1.dat (E1 m) c).arrAt_in w hw _).trans
    ((R1.A_eq (E1 m) c w).trans (V4_of m (outs m) c (Pipeline.arrRef spec1 w) h).symm)
  match w with
  | ⟨0, _⟩ => hi 0 rfl (by decide)
  | ⟨1, _⟩ => hi 1 rfl (by decide)
  | ⟨2, _⟩ => hi 2 rfl (by decide)
  | ⟨3, _⟩ => hi 3 rfl (by decide)
  | ⟨4, _⟩ => hi 4 rfl (by decide)
  | ⟨5, _⟩ => hi 5 rfl (by decide)
  | ⟨6, _⟩ => (F1_out m c).symm
theorem hrest1 (c : Dev nD) : ∀ b, b ∉ Finset.univ.image (Pipeline.arrRef spec1) → F1 m c b = E1 m c b :=
  fun b hb => V4_of m (outs m) c b (by
    intro h
    simp only [List.mem_cons, List.mem_nil_iff, or_false] at h
    rcases h with rfl
    exact hb (Finset.mem_image.mpr ⟨6, Finset.mem_univ _, rfl⟩))

def pdats : (p : Fin 2) → (c : Dev nD) → Dat τ (Elt F) Unit ℕ (UR sig nD τ) ℕ (Pipeline.pin (pcfgs (F := F)) adm p) c
  | ⟨0, _⟩ => fun c => R0.dat (E0 m) c
  | ⟨1, _⟩ => fun c => R1.dat (E1 m) c
abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)
abbrev Er : Fin 3 → Dev nD → sProp 𝕄 := fun _ c => Rr c

theorem hE2 (c : Dev nD) : (Rr c : sProp 𝕄) ⊢ iprop(∃ W, owes (c : Thread nD τ) (0 : CellTallies nD τ sig Unit) W) := by
  iintro ⟨-, H⟩
  iexact H

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E0 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.hin (E0 m) c)
    unfold Pipeline.ΦA
    iintro ⟨Hp, -, Hr⟩
    isplitl [Hr]; · iexact Hr
    iexact Hp
  hout c := by
    rw [Pipeline.ownSems0_none]
    refine (R0.hout (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (F0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E1 m) c).loose
  hwaits := Pipeline.hwaits_of_owed_zero _ _ _ _ L lv 1 fun _ _ => rfl
  pre c := iprop(StableHlo.held (c : Thread nD τ) (Pipeline.ucRefs τ sig) (V3 m (outs2 m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R1.hin (E1 m) c)
    unfold Pipeline.ΦA
    iintro ⟨Hp, -, Hr⟩
    isplitl [Hr]; · iexact Hr
    iexact Hp
  hout c := by
    rw [Pipeline.ownSems0_none]
    refine (R1.hout (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (F1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (seg0 m 𝒱₀ L lv Er),
    .region (reg0 m),
    .host (seg2 m (outs m) 𝒱₀ L lv Er),
    .region (reg1 m),
    .host (seg4 m (outs m) 𝒱₀ L lv Er) ]

theorem main_run (c : Dev nD) : main (F := F) c = Pipeline.Seg.run (segs m) := (main_chain c).trans (by chain_rfl)

set_option backward.isDefEq.respectTransparency.types false in
theorem run_main : θ_run defs (onTc (τ := τ) (main (F := F))) ⟨m, fun _ => 0, ρ⟩ (fun r => ∀ c : Dev nD,
      r.2.mem ((c.tc : Thread nD τ).loc main_v46) = V5 m (outs m) c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V5 m (outs m) c))
    (hch := ⟨fun _ => .rfl, fun _ => .rfl, fun _ => .rfl, fun _ => .rfl, fun _ => .rfl, fun c => sep_mono .rfl (hE2 c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m (outs m) c b)
    (hfin := fun c s' => by
      iintro ⟨Hh, HSI⟩
      unfold StableHlo.held
      imodintro
      iapply (pointsTo_read_all (Pipeline.ucRefs τ sig) (fun b => (((c : Thread nD τ)).1, b)) (V5 m (outs m) c) s')
      isplitl [Hh] <;> iassumption)
    (hQ := fun s h c =>
      have k (b) (hb) := h c _ (mem_uc b hb)
      ⟨k main_v46 (by decide), (k main_arg0 (by decide)).trans (V5_main_arg0 m (outs m) c),
       (k main_arg1 (by decide)).trans (V5_main_arg1 m (outs m) c), (k main_arg2 (by decide)).trans (V5_main_arg2 m (outs m) c),
       (k main_arg3 (by decide)).trans (V5_main_arg3 m (outs m) c), (k main_arg4 (by decide)).trans (V5_main_arg4 m (outs m) c)⟩)

end Cert.Kernel.Run

end
-- ==== Proof.KIdeal.R0Runs.lean ====
import proofs.«170924_j68367289418164_1_alg».proof.Proof.Gen.KernelIdeal.Launch
import proofs.«170924_j68367289418164_1_alg».proof.Proof.Gen.KernelIdeal.Skeleton
import proofs.«170924_j68367289418164_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 24 = 0 :=
  (by decide +kernel : ∀ t : Fin grid0.N, cond0 (grid0.coords t) ↔ t.val % 24 = 0)

abbrev cond1 (i : grid0.Coords) : Prop := k0_cond2 i = 1#1
theorem hcond1 : ∀ t : Fin cfg0.N, cond1 (grid0.coords t) ↔ t.val % 24 = 23 :=
  (by decide +kernel : ∀ t : Fin grid0.N, cond1 (grid0.coords t) ↔ t.val % 24 = 23)

abbrev VO_3 : View sig .tc .vmem S1x64x1 .f32 := (Memref.whole cc0_stg3_0 : Memref sig .tc .vmem S1x64x1 .f32).view
abbrev VO_4 : View sig .tc .vmem S1x64x1 .f32 := (Memref.whole cc0_stg4_0 : Memref sig .tc .vmem S1x64x1 .f32).view
abbrev VO_5 : View sig .tc .vmem S1x64x64 .f32 := (Memref.whole cc0_stg5_0 : Memref sig .tc .vmem S1x64x64 .f32).view
abbrev ms_0 (t : Fin cfg0.N) : Memref sig .tc .vmem S64x4096 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S64x4096 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S64x1 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x64x1 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x64x1 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x64x64 .f32 := win0_5.stage (cfg0.slots t 5)
abbrev hs_5 (t : Fin cfg0.N) : (ms_5 t).IsWhole := hstage0_5 ((cfg0.slots t 5).cast nbuf0_5)
abbrev scM_0 : Memref sig .tc .vmem S64x1 .f32 := Memref.whole cc0_scratch0
abbrev scM_1 : Memref sig .tc .vmem S64x1 .f32 := Memref.whole cc0_scratch1
abbrev scM_2 : Memref sig .tc .vmem S64x64 .f32 := Memref.whole cc0_scratch2
abbrev VS_0 : View sig .tc .vmem S64x1 .f32 := scM_0.view
abbrev VS_1 : View sig .tc .vmem S64x1 .f32 := scM_1.view
abbrev VS_2 : View sig .tc .vmem S64x64 .f32 := scM_2.view

def others (c : Dev nD) : sProp 𝕄 :=
  bigSepL [cc1_stg0_0, cc1_stg0_1, cc1_stg1_0, cc1_stg1_1, cc1_stg2_0, cc1_stg2_1, cc1_stg3_0, cc1_stg3_1, cc1_stg4_0, cc1_stg5_0, cc1_stg6_0, cc1_stg6_1, cc1_scratch0]
    fun b => iprop(∃ f : Buf (Elt F) ((c : Thread nD τ).loc b), ((c : Thread nD τ).loc b) ↦{fullShare} f)

theorem PhiA_eq (c : Dev nD) :
    (Pipeline.ΦA spec0 c : sProp 𝕄)
      = iprop(iprop((∃ d, owns c scM_0 fullShare d) ∗ (∃ d, owns c scM_1 fullShare d) ∗ (∃ d, owns c scM_2 fullShare d) ∗ others c) ∗ (∃ r, prngReg c r)) := by
  unfold Pipeline.ΦA others; rw [scopedRest0_eq]; simp only [scM_0, scM_1, scM_2, owns_whole]; try rfl

/-- A whole memref whose raw contents read `x` is owned at `x` (`owns`, spelt out). -/
theorem owns_unread {s : Shape} {e : EltTy} {c : Dev nD} {M : Memref sig .tc .vmem s e} (h : M.IsWhole) (x : s.Idx → Elt F e) :
    (M.view.loc c ↦[M.view.set]{fullShare} h.unread x : sProp 𝕄) ⊢ iprop(∃ f, ⌜M.view.read (Elt F) f = x⌝ ∗ M.view.loc c ↦[M.view.set]{fullShare} f) :=
  by have : (_ : sProp 𝕄) ⊢ _ := owns_intro (c : Thread nD τ) M fullShare (h.unread x); rwa [h.read_unread] at this

end Cert.KernelIdeal.R0

end
-- ==== Proof.KIdeal.R0RunA.lean ====
import proofs.«170924_j68367289418164_1_alg».proof.Proof.KIdeal.R0Runs

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun_A (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : cond0 i) (hc1 : ¬cond1 i)
    (x0 x1 : Vec F S64x4096 .f32) (x2 : Vec F S64x1 .f32) :
    Σ' (L3 : List (View.Piece (Elt F) S1x64x1 .f32)) (L4 : List (View.Piece (Elt F) S1x64x1 .f32)) (L5 : List (View.Piece (Elt F) S1x64x64 .f32)) (LS0 : List (View.Piece (Elt F) S64x1 .f32)) (LS1 : List (View.Piece (Elt F) S64x1 .f32)), { LS2 : List (View.Piece (Elt F) S64x64 .f32) //
      ∀ (xi3 xi4 : Vec F S1x64x1 .f32) (xi5 : Vec F S1x64x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xi4 ∗ owns c arg7 fullShare xi5 ∗ (∃ d, owns c arg8 fullShare d) ∗ (∃ d, owns c arg9 fullShare d) ∗ (∃ d, owns c arg10 fullShare d)
            ∗ (iprop(owns c arg2 fullShare x0 ∗ owns c arg3 fullShare x1 ∗ owns c arg4 fullShare x2 ∗ owns c arg5 fullShare xi3 ∗ owns c arg6 fullShare xi4 ∗ owns c arg7 fullShare xi5 ∗ (∃ f, arg8.view.loc c ↦[arg8.view.set]{fullShare} arg8.view.writes (Elt F) f LS0) ∗ (∃ f, arg9.view.loc c ↦[arg9.view.set]{fullShare} arg9.view.writes (Elt F) f LS1) ∗ (∃ f, arg10.view.loc c ↦[arg10.view.set]{fullShare} arg10.view.writes (Elt F) f LS2)) -∗ K ⟨⟩))
          ⊢ wp frame (wpE (defs₀ (F := F)) Variants.none c none) E (cc0__cross_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__cross_kernel_eq_skeleton]; unfold cc0__cross_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]; · iapply owns_unread harg2 $$ H0
    isplitl [H1]; · iapply owns_unread harg3 $$ H1
    isplitl [H2]; · iapply owns_unread harg4 $$ H2
    isplitl [H3]; · iapply owns_unread harg5 $$ H3
    isplitl [H4]; · iapply owns_unread harg6 $$ H4
    isplitl [H5]; · iapply owns_unread harg7 $$ H5
    isplitl [HS0]; · iexists _; iexact HS0
    isplitl [HS1]; · iexists _; iexact HS1
    iexists _; iexact HS2

end Cert.KernelIdeal.R0

end
-- ==== Proof.KIdeal.R0RunB.lean ====
import proofs.«170924_j68367289418164_1_alg».proof.Proof.KIdeal.R0RunA

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun_B (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬cond0 i) (hc1 : ¬cond1 i)
    (x0 x1 : Vec F S64x4096 .f32) (x2 : Vec F S64x1 .f32) (xs0 xs1 : Vec F S64x1 .f32) (xs2 : Vec F S64x64 .f32) :
    Σ' (L3 : List (View.Piece (Elt F) S1x64x1 .f32)) (L4 : List (View.Piece (Elt F) S1x64x1 .f32)) (L5 : List (View.Piece (Elt F) S1x64x64 .f32)) (LS0 : List (View.Piece (Elt F) S64x1 .f32)) (LS1 : List (View.Piece (Elt F) S64x1 .f32)), { LS2 : List (View.Piece (Elt F) S64x64 .f32) //
      ∀ (xi3 xi4 : Vec F S1x64x1 .f32) (xi5 : Vec F S1x64x64 .f32) (E : Set ℕ) (K : PUnit → sProp 𝕄),
        iprop(owns c arg2 fullShare x0 ∗ owns c arg3 fullShare x1 ∗ owns c arg4 fullShare x2 ∗ owns c arg5 fullShare xi3 ∗ owns c arg6 fullShare xi4 ∗ owns c arg7 fullShare xi5 ∗ owns c arg8 fullShare xs0 ∗ owns c arg9 fullShare xs1 ∗ owns c arg10 fullShare xs2
            ∗ (iprop(owns c arg2 fullShare x0 ∗ owns c arg3 fullShare x1 ∗ owns c arg4 fullShare x2 ∗ owns c arg5 fullShare xi3 ∗ owns c arg6 fullShare xi4 ∗ owns c arg7 fullShare xi5 ∗ (∃ f, arg8.view.loc c ↦[arg8.view.set]{fullShare} arg8.view.writes (Elt F) f LS0) ∗ (∃ f, arg9.view.loc c ↦[arg9.view.set]{fullShare} arg9.view.writes (Elt F) f LS1) ∗ (∃ f, arg10.view.loc c ↦[arg10.view.set]{fullShare} arg10.view.writes (Elt F) f LS2)) -∗ K ⟨⟩))
          ⊢ wp frame (wpE (defs₀ (F := F)) Variants.none c none) E (cc0__cross_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__cross_kernel_eq_skeleton]; unfold cc0__cross_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]; · iapply owns_unread harg2 $$ H0
    isplitl [H1]; · iapply owns_unread harg3 $$ H1
    isplitl [H2]; · iapply owns_unread harg4 $$ H2
    isplitl [H3]; · iapply owns_unread harg5 $$ H3
    isplitl [H4]; · iapply owns_unread harg6 $$ H4
    isplitl [H5]; · iapply owns_unread harg7 $$ H5
    isplitl [HS0]; · iexists _; iexact HS0
    isplitl [HS1]; · iexists _; iexact HS1
    iexists _; iexact HS2

end Cert.KernelIdeal.R0

end
-- ==== Proof.KIdeal.R0RunC.lean ====
import proofs.«170924_j68367289418164_1_alg».proof.Proof.KIdeal.R0RunB

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun_C (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x1 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x64 .f32) (harg7 : arg7.IsWhole) (arg8 : Memref sig .tc .vmem S64x1 .f32) (harg8 : arg8.IsWhole) (arg9 : Memref sig .tc .vmem S64x1 .f32) (harg9 : arg9.IsWhole) (arg10 : Memref sig .tc .vmem S64x64 .f32) (harg10 : arg10.IsWhole) (hc0 : ¬cond0 i) (hc1 : cond1 i)
    (x0 x1 : Vec F S64x4096 .f32) (x2 : Vec F S64x1 .f32) (xs0 xs1 : Vec F S64x1 .f32) (xs2 : Vec F S64x64 .f32) :
    Σ' (L3 : List (View.Piece (Elt F) S1x64x1 .f32)) (L4 : List (View.Piece (Elt F) S1x64x1 .f32)) (L5 : List (View.Piece (Elt F) S1x64x64 .f32)) (LS0 : List (View.Piece (Elt F) S64x1 .f32)) (LS1 : List (View.Piece (Elt F) S64x1 .f32)), { LS2 : List (View.Piece (Elt F) S64x64 .f32) //
      ∀ (E : Set ℕ) (K : PUnit → sProp 𝕄),
        iprop(owns c arg2 fullShare x0 ∗ owns c arg3 fullShare x1 ∗ owns c arg4 fullShare x2 ∗ (∃ d, owns c arg5 fullShare d) ∗ (∃ d, owns c arg6 fullShare d) ∗ (∃ d, owns c arg7 fullShare d) ∗ owns c arg8 fullShare xs0 ∗ owns c arg9 fullShare xs1 ∗ owns c arg10 fullShare xs2
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f L4) ∗ (∃ f, arg7.view.loc c ↦[arg7.view.set]{fullShare} arg7.view.writes (Elt F) f L5) ∗ (∃ f, arg8.view.loc c ↦[arg8.view.set]{fullShare} arg8.view.writes (Elt F) f LS0) ∗ (∃ f, arg9.view.loc c ↦[arg9.view.set]{fullShare} arg9.view.writes (Elt F) f LS1) ∗ (∃ f, arg10.view.loc c ↦[arg10.view.set]{fullShare} arg10.view.writes (Elt F) f LS2)) -∗ K ⟨⟩))
          ⊢ wp frame (wpE (defs₀ (F := F)) Variants.none c none) E (cc0__cross_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__cross_kernel_eq_skeleton]; unfold cc0__cross_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]; · iapply owns_unread harg2 $$ H0
    isplitl [H1]; · iapply owns_unread harg3 $$ H1
    isplitl [H2]; · iapply owns_unread harg4 $$ H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.KernelIdeal.R0

end
-- ==== Proof.KIdeal.R0Data.lean ====
import proofs.«170924_j68367289418164_1_alg».proof.Proof.KIdeal.R0RunC

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev runA (c : Dev nD) (t : Fin cfg0.N) (h0 : t.val % 24 = 0) (h1 : ¬t.val % 24 = 23) :=
  kernelRun_A (F := F) c (grid0.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) scM_2 (Memref.isWhole_whole _) ((hcond0 t).mpr h0) (fun h => h1 ((hcond1 t).mp h)) (iblk V c 0 t) (iblk V c 1 t) (iblk V c 2 t)
abbrev runB (c : Dev nD) (t : Fin cfg0.N) (h0 : ¬t.val % 24 = 0) (h1 : ¬t.val % 24 = 23) (xs0 xs1 : Vec F S64x1 .f32) (xs2 : Vec F S64x64 .f32) :=
  kernelRun_B (F := F) c (grid0.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) scM_2 (Memref.isWhole_whole _) (fun h => h0 ((hcond0 t).mp h)) (fun h => h1 ((hcond1 t).mp h)) (iblk V c 0 t) (iblk V c 1 t) (iblk V c 2 t) xs0 xs1 xs2
abbrev runC (c : Dev nD) (t : Fin cfg0.N) (h0 : ¬t.val % 24 = 0) (h1 : t.val % 24 = 23) (xs0 xs1 : Vec F S64x1 .f32) (xs2 : Vec F S64x64 .f32) :=
  kernelRun_C (F := F) c (grid0.coords t) (ms_0 t) (hs_0 t) (ms_1 t) (hs_1 t) (ms_2 t) (hs_2 t) (ms_3 t) (hs_3 t) (ms_4 t) (hs_4 t) (ms_5 t) (hs_5 t) scM_0 (Memref.isWhole_whole _) scM_1 (Memref.isWhole_whole _) scM_2 (Memref.isWhole_whole _) (fun h => h0 ((hcond0 t).mp h)) ((hcond1 t).mpr h1) (iblk V c 0 t) (iblk V c 1 t) (iblk V c 2 t) xs0 xs1 xs2

abbrev rd3 (L : List (View.Piece (Elt F) S1x64x1 .f32)) : Vec F S1x64x1 .f32 := VO_3.read (Elt F) (VO_3.writes (Elt F) VO_3.junk L)
abbrev rd4 (L : List (View.Piece (Elt F) S1x64x1 .f32)) : Vec F S1x64x1 .f32 := VO_4.read (Elt F) (VO_4.writes (Elt F) VO_4.junk L)
abbrev rd5 (L : List (View.Piece (Elt F) S1x64x64 .f32)) : Vec F S1x64x64 .f32 := VO_5.read (Elt F) (VO_5.writes (Elt F) VO_5.junk L)
abbrev rs0 (L : List (View.Piece (Elt F) S64x1 .f32)) : Vec F S64x1 .f32 := VS_0.read (Elt F) (VS_0.writes (Elt F) VS_0.junk L)
abbrev rs1 (L : List (View.Piece (Elt F) S64x1 .f32)) : Vec F S64x1 .f32 := VS_1.read (Elt F) (VS_1.writes (Elt F) VS_1.junk L)
abbrev rs2 (L : List (View.Piece (Elt F) S64x64 .f32)) : Vec F S64x64 .f32 := VS_2.read (Elt F) (VS_2.writes (Elt F) VS_2.junk L)

abbrev Out6 (F : FTy → Type) [FloatOps F] : Type := Vec F S1x64x1 .f32 × Vec F S1x64x1 .f32 × Vec F S1x64x64 .f32 × Vec F S64x1 .f32 × Vec F S64x1 .f32 × Vec F S64x64 .f32

def outA (c : Dev nD) (t : Fin cfg0.N) (h0 : t.val % 24 = 0) (h1 : ¬t.val % 24 = 23) : Out6 F := (rd3 (runA V c t h0 h1).1, rd4 (runA V c t h0 h1).2.1, rd5 (runA V c t h0 h1).2.2.1, rs0 (runA V c t h0 h1).2.2.2.1, rs1 (runA V c t h0 h1).2.2.2.2.1, rs2 (runA V c t h0 h1).2.2.2.2.2.1)
def outB (c : Dev nD) (t : Fin cfg0.N) (h0 : ¬t.val % 24 = 0) (h1 : ¬t.val % 24 = 23) (xs0 xs1 : Vec F S64x1 .f32) (xs2 : Vec F S64x64 .f32) : Out6 F := (rd3 (runB V c t h0 h1 xs0 xs1 xs2).1, rd4 (runB V c t h0 h1 xs0 xs1 xs2).2.1, rd5 (runB V c t h0 h1 xs0 xs1 xs2).2.2.1, rs0 (runB V c t h0 h1 xs0 xs1 xs2).2.2.2.1, rs1 (runB V c t h0 h1 xs0 xs1 xs2).2.2.2.2.1, rs2 (runB V c t h0 h1 xs0 xs1 xs2).2.2.2.2.2.1)
def outC (c : Dev nD) (t : Fin cfg0.N) (h0 : ¬t.val % 24 = 0) (h1 : t.val % 24 = 23) (xs0 xs1 : Vec F S64x1 .f32) (xs2 : Vec F S64x64 .f32) : Out6 F := (rd3 (runC V c t h0 h1 xs0 xs1 xs2).1, rd4 (runC V c t h0 h1 xs0 xs1 xs2).2.1, rd5 (runC V c t h0 h1 xs0 xs1 xs2).2.2.1, rs0 (runC V c t h0 h1 xs0 xs1 xs2).2.2.2.1, rs1 (runC V c t h0 h1 xs0 xs1 xs2).2.2.2.2.1, rs2 (runC V c t h0 h1 xs0 xs1 xs2).2.2.2.2.2.1)

def outsAt (c : Dev nD) : (n : ℕ) → n < cfg0.N → Out6 F
  | 0, hn => outA V c ⟨0, hn⟩ (Nat.zero_mod _) (by decide : ¬(0 : ℕ) % 24 = 23)
  | n + 1, hn =>
    if h0 : (n + 1) % 24 = 0 then
      if h1 : (n + 1) % 24 = 23 then False.elim (by omega)
      else outA V c ⟨n + 1, hn⟩ h0 h1
    else
      if h1 : (n + 1) % 24 = 23 then outC V c ⟨n + 1, hn⟩ h0 h1 (outsAt c n (Nat.lt_of_succ_lt hn)).2.2.2.1 (outsAt c n (Nat.lt_of_succ_lt hn)).2.2.2.2.1 (outsAt c n (Nat.lt_of_succ_lt hn)).2.2.2.2.2
      else outB V c ⟨n + 1, hn⟩ h0 h1 (outsAt c n (Nat.lt_of_succ_lt hn)).2.2.2.1 (outsAt c n (Nat.lt_of_succ_lt hn)).2.2.2.2.1 (outsAt c n (Nat.lt_of_succ_lt hn)).2.2.2.2.2

theorem outsAt_A (c : Dev nD) (t : Fin cfg0.N) (h0 : t.val % 24 = 0) (h1 : ¬t.val % 24 = 23) : outsAt V c t.val t.isLt = outA V c t h0 h1 := by
  obtain ⟨_ | n, hn⟩ := t
  · rfl
  · exact (dif_pos h0).trans (dif_neg h1)

theorem outsAt_B (c : Dev nD) (t : Fin cfg0.N) (h0 : ¬t.val % 24 = 0) (h1 : ¬t.val % 24 = 23) :
    outsAt V c t.val t.isLt = outB V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2.1 (outsAt V c (t.val - 1) (Nat.lt_of_le_of_lt (Nat.sub_le _ _) t.isLt)).2.2.2.2.2 := by
  obtain ⟨_ | n, hn⟩ := t
  · exact absurd (Nat.zero_mod _) h0
  · exact (dif_neg h0).trans (dif_neg h1)

theorem outsAt_C (c : Dev nD) (t : Fin cfg0.N) (h0 : ¬t.val % 24 = 0) (h1 : t.val % 24 = 23) :
    outsAt V c t.val t.isLt = outC V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2.1 (outsAt V c (t.val - 1) (Nat.lt_of_le_of_lt (Nat.sub_le _ _) t.isLt)).2.2.2.2.2 := by
  obtain ⟨_ | n, hn⟩ := t
  · exact absurd (Nat.zero_mod _) h0
  · exact (dif_neg h0).trans (dif_pos h1)

/-- The invariant between points: the three accumulators at the contents `o` names, beside what the body never touches. -/
def hold (c : Dev nD) (o : Out6 F) : sProp 𝕄 :=
  iprop(iprop(owns c scM_0 fullShare o.2.2.2.1 ∗ owns c scM_1 fullShare o.2.2.2.2.1 ∗ owns c scM_2 fullShare o.2.2.2.2.2 ∗ others c) ∗ (∃ r, prngReg c r))

/-- Accumulators held at named contents are held at some contents. -/
theorem hold_out (c : Dev nD) (o : Out6 F) : hold c o ⊢ Pipeline.ΦA spec0 c := by
  rw [PhiA_eq]; unfold hold
  iintro ⟨⟨HS0, HS1, HS2, Hoth⟩, Hg⟩
  iframe Hoth Hg
  isplitl [HS0]; · iexists _; iexact HS0
  isplitl [HS1]; · iexists _; iexact HS1
  iexists _; iexact HS2

def PhiS (c : Dev nD) : (n : ℕ) → n ≤ cfg0.N → sProp 𝕄
  | 0, _ => Pipeline.ΦA spec0 c
  | n + 1, hn => hold c (outsAt V c n hn)

theorem PhiS_pos (c : Dev nD) (n : ℕ) (h : n ≤ cfg0.N) (hz : n ≠ 0) : PhiS V c n h = hold c (outsAt V c (n - 1) (by omega)) := by
  obtain _ | n := n
  · exact absurd rfl hz
  · rfl

theorem PhiS_out (c : Dev nD) : ∀ n h, PhiS V c n h ⊢ Pipeline.ΦA spec0 c
  | 0, _ => .rfl
  | _ + 1, _ => hold_out c _

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2.1
    | ⟨5, _⟩ => (outsAt V c t.val t.isLt).2.2.1
  Φ t := PhiS V c t.val (Nat.le_of_lt_succ t.isLt)
  q _ := fullShare
  owed _ := 0

theorem A_eq (c : Dev nD) (w : Fin cfg0.W) : (dat V c).A w = V c (Pipeline.arrRef spec0 w) := rfl

theorem after_3 (c : Dev nD) (t : Fin cfg0.N) : (dat V c).after 3 t = (outsAt V c t.val t.isLt).1 := rfl
theorem after_4 (c : Dev nD) (t : Fin cfg0.N) : (dat V c).after 4 t = (outsAt V c t.val t.isLt).2.1 := rfl
theorem after_5 (c : Dev nD) (t : Fin cfg0.N) : (dat V c).after 5 t = (outsAt V c t.val t.isLt).2.2.1 := rfl

theorem before_0 (c : Dev nD) (t : Fin cfg0.N) (d) : (dat V c).before 0 t d = iblk V c 0 t :=
  ((dat V c).before_in_eq_fetched 0 rfl (fun _ => rfl) (fun _ _ _ => rfl) (fun _ => rfl) t d).trans rfl
theorem before_1 (c : Dev nD) (t : Fin cfg0.N) (d) : (dat V c).before 1 t d = iblk V c 1 t :=
  ((dat V c).before_in_eq_fetched 1 rfl (fun _ => rfl) (fun _ _ _ => rfl) (fun _ => rfl) t d).trans rfl
theorem before_2 (c : Dev nD) (t : Fin cfg0.N) (d) : (dat V c).before 2 t d = iblk V c 2 t :=
  ((dat V c).before_in_eq_fetched 2 rfl (fun _ => rfl) (fun _ _ _ => rfl) (fun _ => rfl) t d).trans rfl

theorem out_idle : ∀ t : Fin cfg0.N, ¬t.val % 24 = 23 → ∀ w : Fin 6, 3 ≤ w.val → idle0 w (grid0.coords t) = true ∧ (win0 w).flush t = false := by decide +kernel
theorem out_live : ∀ t : Fin cfg0.N, t.val % 24 = 23 → ∀ w : Fin 6, 3 ≤ w.val → idle0 w (grid0.coords t) = false := by decide +kernel

set_option maxHeartbeats 8000000 in
/-- One point of the grid: t mod 24 picks the case; each buffer's new contents are read off the pieces the case's run
    stores, which tile the buffer. -/
theorem body_obligation (c : Dev nD) : BodyObligation (dat (F := F) V c) (defs₀ (F := F)) Variants.none () Set.univ := fun t => by
  rw [bigSep_W0, bigSep_W0]
  dsimp only
  simp only [before_0, before_1, before_2]
  rw [show (dat V c).Φ t.castSucc = PhiS V c t.val (Nat.le_of_lt t.isLt) from rfl, show (dat V c).Φ t.succ = hold c (outsAt V c t.val t.isLt) from rfl,
    show (dat V c).owesAt () t.succ = (dat V c).owesAt () t.castSucc from rfl, show (dat V c).after 0 t = iblk V c 0 t from rfl,
    show (dat V c).after 1 t = iblk V c 1 t from rfl, show (dat V c).after 2 t = iblk V c 2 t from rfl]
  change _ ⊢ wp _ _ _ (bodyAt0 t) _
  unfold bodyAt0
  by_cases h1 : t.val % 24 = 23
  · have h0 : ¬t.val % 24 = 0 := by omega
    have hl := out_live t h1
    simp only [hl 3 (by decide), hl 4 (by decide), hl 5 (by decide)]
    rw [after_3, after_4, after_5, outsAt_C V c t h0 h1, PhiS_pos V c _ _ (fun h => h0 (by rw [h]))]
    unfold outC hold; dsimp only
    iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
    iapply ((runC V c t h0 h1 _ _ _).2.2.2.2.2.2 Set.univ _)
    iframe H0 H1 H2 HS0 HS1 HS2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩, ⟨%es0, HS0⟩, ⟨%es1, HS1⟩, ⟨%es2, HS2⟩⟩
    iframe Hoth Hg Ho H0 H1 H2
    isplitl [HS0 HS1 HS2]
    · isplitl [HS0]; · iapply (Ring.owns_of_writes_tiledL _ S64x1.size) $$ HS0; ipureintro; sl_kernel_rfl
      isplitl [HS1]; · iapply (Ring.owns_of_writes_tiledL _ S64x1.size) $$ HS1; ipureintro; sl_kernel_rfl
      iapply (Ring.owns_of_writes_tiledL _ S64x64.size) $$ HS2; ipureintro; sl_kernel_rfl
    isplitl [H3]; · iapply (Ring.owns_of_writes_tiledL _ S1x64x1.size) $$ H3; ipureintro; sl_kernel_rfl
    isplitl [H4]; · iapply (Ring.owns_of_writes_tiledL _ S1x64x1.size) $$ H4; ipureintro; sl_kernel_rfl
    iapply (Ring.owns_of_writes_tiledL _ S1x64x64.size) $$ H5; ipureintro; sl_kernel_rfl
  · have hi := out_idle t h1
    simp only [hi 3 (by decide), hi 4 (by decide), hi 5 (by decide)]
    by_cases h0 : t.val % 24 = 0
    case' pos => rw [outsAt_A V c t h0 h1]; unfold outA; refine (sep_mono_left (PhiS_out V c _ _)).trans ?_; rw [PhiA_eq]
    case' neg => rw [outsAt_B V c t h0 h1, PhiS_pos V c _ _ (fun h => h0 (by rw [h]))]; unfold outB
    all_goals
      unfold hold; dsimp only
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      first | iapply ((runA V c t h0 h1).2.2.2.2.2.2 _ _ _ Set.univ _) | iapply ((runB V c t h0 h1 _ _ _).2.2.2.2.2.2 _ _ _ Set.univ _)
      iframe H0 H1 H2 H3 H4 H5 HS0 HS1 HS2
      iintro ⟨H0, H1, H2, H3, H4, H5, ⟨%es0, HS0⟩, ⟨%es1, HS1⟩, ⟨%es2, HS2⟩⟩
      iframe Hoth Hg Ho H0 H1 H2
      isplitl [HS0 HS1 HS2]
      · isplitl [HS0]; · iapply (Ring.owns_of_writes_tiledL _ S64x1.size) $$ HS0; ipureintro; sl_kernel_rfl
        isplitl [HS1]; · iapply (Ring.owns_of_writes_tiledL _ S64x1.size) $$ HS1; ipureintro; sl_kernel_rfl
        iapply (Ring.owns_of_writes_tiledL _ S64x64.size) $$ HS2; ipureintro; sl_kernel_rfl
      isplitl [H3]; · iexists _; iexact H3
      isplitl [H4]; · iexists _; iexact H4
      iexists _; iexact H5

theorem hin (c : Dev nD) : Pipeline.ΦA spec0 c ⊢ (dat V c).Φ 0 := (.rfl : _ ⊢ PhiS V c 0 (Nat.zero_le _))

theorem hout (c : Dev nD) : (dat V c).Φ (Fin.last cfg0.N) ⊢ Pipeline.ΦA spec0 c := (PhiS_out V c _ _ : PhiS V c cfg0.N le_rfl ⊢ _)

end Cert.KernelIdeal.R0

end
-- ==== Proof.KIdeal.R1Runs.lean ====
import proofs.«170924_j68367289418164_1_alg».proof.Proof.Gen.KernelIdeal.Launch
import proofs.«170924_j68367289418164_1_alg».proof.Proof.Gen.KernelIdeal.Skeleton
import proofs.«170924_j68367289418164_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Window `w`'s block at point `t`, read off its array at the region-entry contents `V`. -/
def iblk (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 24 = 0 :=
  (by decide +kernel : ∀ t : Fin grid1.N, cond1_0 (grid1.coords t) ↔ t.val % 24 = 0)

abbrev cond1_1 (i : grid1.Coords) : Prop := k1_cond2 i = 1#1
theorem hcond1_1 : ∀ t : Fin cfg1.N, cond1_1 (grid1.coords t) ↔ t.val % 24 = 23 :=
  (by decide +kernel : ∀ t : Fin grid1.N, cond1_1 (grid1.coords t) ↔ t.val % 24 = 23)

theorem idle1_6 : ∀ t : Fin cfg1.N, t.val % 24 ≠ 23 → cfg1.idle 6 (grid1.coords t) = true ∧ (cfg1.win 6).flush t = false := by decide +kernel
theorem live1_6 : ∀ t : Fin cfg1.N, t.val % 24 = 23 → cfg1.idle 6 (grid1.coords t) = false := by decide +kernel

abbrev VO1_6 : View sig .tc .vmem S1x1x1 .f32 := (Memref.whole cc1_stg6_0 : Memref sig .tc .vmem S1x1x1 .f32).view
abbrev ms1_0 (t : Fin cfg1.N) : Memref sig .tc .vmem S64x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1 .f32 := win1_6.stage (cfg1.slots t 6)
abbrev hs1_6 (t : Fin cfg1.N) : (ms1_6 t).IsWhole := hstage1_6 ((cfg1.slots t 6).cast nbuf1_6)
abbrev scM1_0 : Memref sig .tc .vmem S1x1 .f32 := Memref.whole cc1_scratch0
abbrev VS1_0 : View sig .tc .vmem S1x1 .f32 := scM1_0.view

theorem eq_of_entails {P Q : sProp 𝕄} (h₁ : P ⊢ Q) (h₂ : Q ⊢ P) : P = Q := BI.equiv_iff.mp ⟨h₁, h₂⟩

/-- A whole memref read at `X` holds exactly the raw contents that read `X`. -/
theorem owns_eq_unread (c : Dev nD) {sp : Space} {sh : Shape} {e : EltTy} {m : Memref sig .tc sp sh e} (h : m.IsWhole)
    (q : PosShare TreeShare) (X : sh.Idx → Elt F e) :
    (owns (c : Thread nD τ) m q X : sProp 𝕄) = (m.view.loc (c : Thread nD τ) ↦[m.view.set]{q} h.unread X) := by
  unfold owns
  refine eq_of_entails ?_ ?_
  · iintro ⟨%f, %hf, H⟩; obtain rfl := h.eq_unread hf; iexact H
  · iintro H; iexists _; isplitr; · ipureintro; exact h.read_unread _
    iexact H

/-- Pieces that cover a memref's shape leave it owned at their read-back over any base contents. -/
theorem owns_writes (c : Dev nD) {sp : Space} {sh : Shape} {e : EltTy} (m : Memref sig .tc sp sh e) (q : PosShare TreeShare)
    (v' : View sig .tc sp sh e) (f' : v'.ty.Contents (Elt F)) (L : List (View.Piece (Elt F) sh e)) (h : ∀ y, ∃ p ∈ L, y ∈ p.1.set) :
    iprop(∃ f, m.view.loc (c : Thread nD τ) ↦[m.view.set]{q} m.view.writes (Elt F) f L)
      ⊢ (owns (c : Thread nD τ) m q (v'.read (Elt F) (v'.writes (Elt F) f' L)) : sProp 𝕄) := by
  unfold owns; iintro ⟨%f, H⟩; iexists (m.view.writes (Elt F) f L); isplitr; · ipureintro; exact View.read_writes_of_cover _ _ _ _ _ h
  iexact H

/-- Every scoped buffer the body does not touch, unopened. -/
def Rest1 (c : Dev nD) : sProp 𝕄 := Pipeline.scopedRestBut (Ix := Unit) (Name := ℕ) (U := UR sig nD τ) (Lvl := ℕ) (Val := Elt F) spec1 c [cc1_scratch0]

/-- The class's invariant: the accumulator at some contents, those buffers, the generator register at some state. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA Rest1
  rw [Pipeline.scopedRest_split_of_list spec1 c [cc1_scratch0] (by decide) (by decide)]
  simp only [bigSepL_singleton, scM1_0, owns_whole]; rfl

end Cert.KernelIdeal.R1

end
-- ==== Proof.KIdeal.R1RunA.lean ====
import proofs.«170924_j68367289418164_1_alg».proof.Proof.KIdeal.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S1x1 .f32) (harg9 : arg9.IsWhole) (hc0 : cond1_0 i) (hc1 : ¬cond1_1 i)
    (x0 : Vec F S64x4096 .f32) (x1 : Vec F S64x4096 .f32) (x2 : Vec F S64x4096 .f32) (x3 : Vec F S64x4096 .f32) (x4 : Vec F S64x1 .f32) (x5 : Vec F S64x64 .f32) :
    Σ' (L6 : List (View.Piece (Elt F) S1x1x1 .f32)), { LS0 : List (View.Piece (Elt F) S1x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__mix_loss_kernel i arg2 harg2 arg3 harg3 arg4 harg4 arg5 harg5 arg6 harg6 arg7 harg7 arg8 harg8 arg9 harg9) K } := by
  refine ⟨[], ?_, fun xi6 E K => ?run⟩
  case run =>
    simp only [cc1__mix_loss_kernel_eq_skeleton]; unfold cc1__mix_loss_kernel_skel
    simp only [k1_part1_eq_skeleton, owns_eq_unread c, harg2, harg3, harg4, harg5, harg6, harg7, harg8, harg9]
    iintro ⟨H0, H1, H2, H3, H4, H5, H6, ⟨%d, HS0⟩, Hk⟩
    sl_exec (disch := first | exact hc0 | exact hc1)
    sl_step
    iapply Hk
    iframe H0 H1 H2 H3 H4 H5 H6
    iexists _; iexact HS0

end Cert.KernelIdeal.R1

end
-- ==== Proof.KIdeal.R1RunB.lean ====
import proofs.«170924_j68367289418164_1_alg».proof.Proof.KIdeal.R1RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S1x1 .f32) (harg9 : arg9.IsWhole) (hc0 : ¬cond1_0 i) (hc1 : ¬cond1_1 i)
    (x0 : Vec F S64x4096 .f32) (x1 : Vec F S64x4096 .f32) (x2 : Vec F S64x4096 .f32) (x3 : Vec F S64x4096 .f32) (x4 : Vec F S64x1 .f32) (x5 : Vec F S64x64 .f32) (xs0 : Vec F S1x1 .f32) :
    Σ' (L6 : List (View.Piece (Elt F) S1x1x1 .f32)), { LS0 : List (View.Piece (Elt F) S1x1 .f32) //
      ∀ (xi6 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__mix_loss_kernel i arg2 harg2 arg3 harg3 arg4 harg4 arg5 harg5 arg6 harg6 arg7 harg7 arg8 harg8 arg9 harg9) K } := by
  refine ⟨[], ?_, fun xi6 E K => ?run⟩
  case run =>
    simp only [cc1__mix_loss_kernel_eq_skeleton]; unfold cc1__mix_loss_kernel_skel
    simp only [k1_part1_eq_skeleton, owns_eq_unread c, harg2, harg3, harg4, harg5, harg6, harg7, harg8, harg9]
    iintro ⟨H0, H1, H2, H3, H4, H5, H6, HS0, Hk⟩
    sl_exec (disch := first | exact hc0 | exact hc1)
    sl_step
    iapply Hk
    iframe H0 H1 H2 H3 H4 H5 H6
    iexists _; iexact HS0

end Cert.KernelIdeal.R1

end
-- ==== Proof.KIdeal.R1RunC.lean ====
import proofs.«170924_j68367289418164_1_alg».proof.Proof.KIdeal.R1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S1x1 .f32) (harg9 : arg9.IsWhole) (hc0 : ¬cond1_0 i) (hc1 : cond1_1 i)
    (x0 : Vec F S64x4096 .f32) (x1 : Vec F S64x4096 .f32) (x2 : Vec F S64x4096 .f32) (x3 : Vec F S64x4096 .f32) (x4 : Vec F S64x1 .f32) (x5 : Vec F S64x64 .f32) (xs0 : Vec F S1x1 .f32) :
    Σ' (L6 : List (View.Piece (Elt F) S1x1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__mix_loss_kernel i arg2 harg2 arg3 harg3 arg4 harg4 arg5 harg5 arg6 harg6 arg7 harg7 arg8 harg8 arg9 harg9) K } := by
  refine ⟨?_, ?_, fun E K => ?run⟩
  case run =>
    simp only [cc1__mix_loss_kernel_eq_skeleton]; unfold cc1__mix_loss_kernel_skel
    simp only [k1_part1_eq_skeleton, owns_eq_unread c, harg2, harg3, harg4, harg5, harg6, harg7, harg8, harg9]
    iintro ⟨H0, H1, H2, H3, H4, H5, ⟨%d, H6⟩, HS0, Hk⟩
    sl_exec (disch := first | exact hc0 | exact hc1)
    sl_step
    iapply Hk
    iframe H0 H1 H2 H3 H4 H5
    isplitl [H6]; · iexists _; iexact H6
    iexists _; iexact HS0

end Cert.KernelIdeal.R1

end
-- ==== Proof.KIdeal.R1Data.lean ====
import proofs.«170924_j68367289418164_1_alg».proof.Proof.KIdeal.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Run
variable (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x4096 .f32) (harg4 : arg4.IsWhole) (arg5 : Memref sig .tc .vmem S64x4096 .f32) (harg5 : arg5.IsWhole) (arg6 : Memref sig .tc .vmem S64x1 .f32) (harg6 : arg6.IsWhole) (arg7 : Memref sig .tc .vmem S64x64 .f32) (harg7 : arg7.IsWhole) (arg8 : Memref sig .tc .vmem S1x1x1 .f32) (harg8 : arg8.IsWhole) (arg9 : Memref sig .tc .vmem S1x1 .f32) (harg9 : arg9.IsWhole)

section A
variable (hc0 : cond1_0 i) (hc1 : ¬cond1_1 i) (x0 x1 x2 x3 : Vec F S64x4096 .f32) (x4 : Vec F S64x1 .f32) (x5 : Vec F S64x64 .f32)

/-- Case A stores nothing into output 6: a placeholder (no pieces over junk) that nothing consults. -/
def out1_A_6 : Vec F S1x1x1 .f32 := VO1_6.read (Elt F) (VO1_6.writes (Elt F) VO1_6.junk (kernelRun1_A c i _ harg2 _ harg3 _ harg4 _ harg5 _ harg6 _ harg7 _ harg8 _ harg9 hc0 hc1 x0 x1 x2 x3 x4 x5).1)

/-- Each case's stores into the accumulator are of the whole (1,1) buffer, so its pieces cover it. -/
theorem scover1_A_0 (y : S1x1.Idx) : ∃ pc ∈ (kernelRun1_A c i _ harg2 _ harg3 _ harg4 _ harg5 _ harg6 _ harg7 _ harg8 _ harg9 hc0 hc1 x0 x1 x2 x3 x4 x5).2.1, y ∈ pc.1.set :=
  View.cover_of_tiledL _ S1x1.size (by sl_kernel_rfl) y

/-- What each case leaves in the accumulator: its pieces read back over junk. -/
def sout1_A_0 : Vec F S1x1 .f32 := VS1_0.read (Elt F) (VS1_0.writes (Elt F) VS1_0.junk (kernelRun1_A c i _ harg2 _ harg3 _ harg4 _ harg5 _ harg6 _ harg7 _ harg8 _ harg9 hc0 hc1 x0 x1 x2 x3 x4 x5).2.1)

end A

section B
variable (hc0 : ¬cond1_0 i) (hc1 : ¬cond1_1 i) (x0 x1 x2 x3 : Vec F S64x4096 .f32) (x4 : Vec F S64x1 .f32) (x5 : Vec F S64x64 .f32) (xs0 : Vec F S1x1 .f32)

def out1_B_6 : Vec F S1x1x1 .f32 := VO1_6.read (Elt F) (VO1_6.writes (Elt F) VO1_6.junk (kernelRun1_B c i _ harg2 _ harg3 _ harg4 _ harg5 _ harg6 _ harg7 _ harg8 _ harg9 hc0 hc1 x0 x1 x2 x3 x4 x5 xs0).1)

theorem scover1_B_0 (y : S1x1.Idx) : ∃ pc ∈ (kernelRun1_B c i _ harg2 _ harg3 _ harg4 _ harg5 _ harg6 _ harg7 _ harg8 _ harg9 hc0 hc1 x0 x1 x2 x3 x4 x5 xs0).2.1, y ∈ pc.1.set :=
  View.cover_of_tiledL _ S1x1.size (by sl_kernel_rfl) y

def sout1_B_0 : Vec F S1x1 .f32 := VS1_0.read (Elt F) (VS1_0.writes (Elt F) VS1_0.junk (kernelRun1_B c i _ harg2 _ harg3 _ harg4 _ harg5 _ harg6 _ harg7 _ harg8 _ harg9 hc0 hc1 x0 x1 x2 x3 x4 x5 xs0).2.1)

end B

section C
variable (hc0 : ¬cond1_0 i) (hc1 : cond1_1 i) (x0 x1 x2 x3 : Vec F S64x4096 .f32) (x4 : Vec F S64x1 .f32) (x5 : Vec F S64x64 .f32) (xs0 : Vec F S1x1 .f32)

/-- Case C's one store into output 6 is of its whole (1,1,1) block. -/
theorem cover1_C_6 (y : S1x1x1.Idx) : ∃ pc ∈ (kernelRun1_C c i _ harg2 _ harg3 _ harg4 _ harg5 _ harg6 _ harg7 _ harg8 _ harg9 hc0 hc1 x0 x1 x2 x3 x4 x5 xs0).1, y ∈ pc.1.set :=
  View.cover_of_tiledL _ S1x1x1.size (by sl_kernel_rfl) y

def out1_C_6 : Vec F S1x1x1 .f32 := VO1_6.read (Elt F) (VO1_6.writes (Elt F) VO1_6.junk (kernelRun1_C c i _ harg2 _ harg3 _ harg4 _ harg5 _ harg6 _ harg7 _ harg8 _ harg9 hc0 hc1 x0 x1 x2 x3 x4 x5 xs0).1)

theorem scover1_C_0 (y : S1x1.Idx) : ∃ pc ∈ (kernelRun1_C c i _ harg2 _ harg3 _ harg4 _ harg5 _ harg6 _ harg7 _ harg8 _ harg9 hc0 hc1 x0 x1 x2 x3 x4 x5 xs0).2.1, y ∈ pc.1.set :=
  View.cover_of_tiledL _ S1x1.size (by sl_kernel_rfl) y

def sout1_C_0 : Vec F S1x1 .f32 := VS1_0.read (Elt F) (VS1_0.writes (Elt F) VS1_0.junk (kernelRun1_C c i _ harg2 _ harg3 _ harg4 _ harg5 _ harg6 _ harg7 _ harg8 _ harg9 hc0 hc1 x0 x1 x2 x3 x4 x5 xs0).2.1)

end C

end Run

section Region
variable (V : (c : Dev nD) → (b : Ref sig .tc) → Buf (Elt F) ((c : Thread nD τ).loc b))

/-- What output 6's buffer and the accumulator hold after position `n`: the case `n % 24` selects, the accumulator read at what `n - 1` left. -/
def outsAt (c : Dev nD) : (n : ℕ) → n < cfg1.N → Vec F S1x1x1 .f32 × Vec F S1x1 .f32
  | 0, hn => (out1_A_6 c _ _ (hs1_0 ⟨0, hn⟩) _ (hs1_1 ⟨0, hn⟩) _ (hs1_2 ⟨0, hn⟩) _ (hs1_3 ⟨0, hn⟩) _ (hs1_4 ⟨0, hn⟩) _ (hs1_5 ⟨0, hn⟩) _ (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout1_A_0 c _ _ (hs1_0 ⟨0, hn⟩) _ (hs1_1 ⟨0, hn⟩) _ (hs1_2 ⟨0, hn⟩) _ (hs1_3 ⟨0, hn⟩) _ (hs1_4 ⟨0, hn⟩) _ (hs1_5 ⟨0, hn⟩) _ (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 24 = 0 then
      if h1 : (n + 1) % 24 = 23 then
        False.elim (by omega)
      else
        (out1_A_6 c _ _ (hs1_0 ⟨n + 1, hn⟩) _ (hs1_1 ⟨n + 1, hn⟩) _ (hs1_2 ⟨n + 1, hn⟩) _ (hs1_3 ⟨n + 1, hn⟩) _ (hs1_4 ⟨n + 1, hn⟩) _ (hs1_5 ⟨n + 1, hn⟩) _ (hs1_6 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout1_A_0 c _ _ (hs1_0 ⟨n + 1, hn⟩) _ (hs1_1 ⟨n + 1, hn⟩) _ (hs1_2 ⟨n + 1, hn⟩) _ (hs1_3 ⟨n + 1, hn⟩) _ (hs1_4 ⟨n + 1, hn⟩) _ (hs1_5 ⟨n + 1, hn⟩) _ (hs1_6 ⟨n + 1, hn⟩) scM1_0 (Memref.isWhole_whole _) ((hcond1_0 ⟨n + 1, hn⟩).mpr h0) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      if h1 : (n + 1) % 24 = 23 then
        (out1_C_6 c _ _ (hs1_0 ⟨n + 1, hn⟩) _ (hs1_1 ⟨n + 1, hn⟩) _ (hs1_2 ⟨n + 1, hn⟩) _ (hs1_3 ⟨n + 1, hn⟩) _ (hs1_4 ⟨n + 1, hn⟩) _ (hs1_5 ⟨n + 1, hn⟩) _ (hs1_6 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2, sout1_C_0 c _ _ (hs1_0 ⟨n + 1, hn⟩) _ (hs1_1 ⟨n + 1, hn⟩) _ (hs1_2 ⟨n + 1, hn⟩) _ (hs1_3 ⟨n + 1, hn⟩) _ (hs1_4 ⟨n + 1, hn⟩) _ (hs1_5 ⟨n + 1, hn⟩) _ (hs1_6 ⟨n + 1, hn⟩) scM1_0 (Memref.isWhole_whole _) (fun h => h0 ((hcond1_0 ⟨n + 1, hn⟩).mp h)) ((hcond1_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2)
      else
        (out1_B_6 c _ _ (hs1_0 ⟨n + 1, hn⟩) _ (hs1_1 ⟨n + 1, hn⟩) _ (hs1_2 ⟨n + 1, hn⟩) _ (hs1_3 ⟨n + 1, hn⟩) _ (hs1_4 ⟨n + 1, hn⟩) _ (hs1_5 ⟨n + 1, hn⟩) _ (hs1_6 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2, sout1_B_0 c _ _ (hs1_0 ⟨n + 1, hn⟩) _ (hs1_1 ⟨n + 1, hn⟩) _ (hs1_2 ⟨n + 1, hn⟩) _ (hs1_3 ⟨n + 1, hn⟩) _ (hs1_4 ⟨n + 1, hn⟩) _ (hs1_5 ⟨n + 1, hn⟩) _ (hs1_6 ⟨n + 1, hn⟩) scM1_0 (Memref.isWhole_whole _) (fun h => h0 ((hcond1_0 ⟨n + 1, hn⟩).mp h)) (fun h => h1 ((hcond1_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt c n (Nat.lt_of_succ_lt hn)).2)

theorem outsAt_A (c : Dev nD) (t : Fin cfg1.N) (h0 : t.val % 24 = 0) (h1 : ¬t.val % 24 = 23) :
    outsAt V c t.val t.isLt = (out1_A_6 c _ _ (hs1_0 t) _ (hs1_1 t) _ (hs1_2 t) _ (hs1_3 t) _ (hs1_4 t) _ (hs1_5 t) _ (hs1_6 t) scM1_0 (Memref.isWhole_whole _) ((hcond1_0 t).mpr h0) (fun h => h1 ((hcond1_1 t).mp h)) (iblk V c 0 t) (iblk V c 1 t) (iblk V c 2 t) (iblk V c 3 t) (iblk V c 4 t) (iblk V c 5 t), sout1_A_0 c _ _ (hs1_0 t) _ (hs1_1 t) _ (hs1_2 t) _ (hs1_3 t) _ (hs1_4 t) _ (hs1_5 t) _ (hs1_6 t) scM1_0 (Memref.isWhole_whole _) ((hcond1_0 t).mpr h0) (fun h => h1 ((hcond1_1 t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans ((dif_neg h1).trans rfl)

theorem outsAt_B (c : Dev nD) (t : Fin cfg1.N) (h0 : ¬t.val % 24 = 0) (h1 : ¬t.val % 24 = 23) :
    outsAt V c t.val t.isLt = (out1_B_6 c _ _ (hs1_0 t) _ (hs1_1 t) _ (hs1_2 t) _ (hs1_3 t) _ (hs1_4 t) _ (hs1_5 t) _ (hs1_6 t) scM1_0 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2, sout1_B_0 c _ _ (hs1_0 t) _ (hs1_1 t) _ (hs1_2 t) _ (hs1_3 t) _ (hs1_4 t) _ (hs1_5 t) _ (hs1_6 t) scM1_0 (Memref.isWhole_whole _) (fun h => h0 ((hcond1_0 t).mp h)) (fun h => h1 ((hcond1_1 t).mp h)) (iblk V c 0 t) (iblk V c 1 t) (iblk V c 2 t) (iblk V c 3 t) (iblk V c 4 t) (iblk V c 5 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 24 = 0) (h1 : t.val % 24 = 23) :
    outsAt V c t.val t.isLt = (out1_C_6 c _ _ (hs1_0 t) _ (hs1_1 t) _ (hs1_2 t) _ (hs1_3 t) _ (hs1_4 t) _ (hs1_5 t) _ (hs1_6 t) scM1_0 (Memref.isWhole_whole _) (fun h => h0 ((hcond1_0 t).mp h)) ((hcond1_1 t).mpr h1) (iblk V c 0 t) (iblk V c 1 t) (iblk V c 2 t) (iblk V c 3 t) (iblk V c 4 t) (iblk V c 5 t) (outsAt V c (t.val - 1) (Nat.lt_of_le_of_lt (Nat.sub_le _ _) t.isLt)).2, sout1_C_0 c _ _ (hs1_0 t) _ (hs1_1 t) _ (hs1_2 t) _ (hs1_3 t) _ (hs1_4 t) _ (hs1_5 t) _ (hs1_6 t) scM1_0 (Memref.isWhole_whole _) (fun h => h0 ((hcond1_0 t).mp h)) ((hcond1_1 t).mpr h1) (iblk V c 0 t) (iblk V c 1 t) (iblk V c 2 t) (iblk V c 3 t) (iblk V c 4 t) (iblk V c 5 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: the class's at 0; afterwards the accumulator at what the point before left. -/
def PhiS (c : Dev nD) : (n : ℕ) → n ≤ cfg1.N → sProp 𝕄
  | 0, _ => Pipeline.ΦA spec1 c
  | n + 1, hn => iprop(iprop(owns (c : Thread nD τ) scM1_0 fullShare ((outsAt V c n hn).2) ∗ Rest1 c) ∗ (∃ r, prngReg c r))

theorem PhiS_pos (c : Dev nD) (n : ℕ) (h : n ≤ cfg1.N) (hz : n ≠ 0) :
    PhiS V c n h = iprop(iprop(owns (c : Thread nD τ) scM1_0 fullShare ((outsAt V c (n - 1) (by omega)).2) ∗ Rest1 c) ∗ (∃ r, prngReg c r)) := by
  cases n with
  | zero => exact absurd rfl hz
  | succ n => rfl

/-- At any position the invariant gives the class's: the accumulator's named contents are forgotten. -/
theorem PhiS_any (c : Dev nD) (n : ℕ) (h : n ≤ cfg1.N) :
    PhiS V c n h ⊢ iprop(iprop((∃ d, owns (c : Thread nD τ) scM1_0 fullShare d) ∗ Rest1 c) ∗ (∃ r, prngReg c r)) := by
  by_cases hz : n = 0
  · subst hz; exact Entails.of_eq (PhiA1_eq c)
  · rw [PhiS_pos V c n h hz]; iintro ⟨⟨HS, HR⟩, Hg⟩; iframe HR Hg; iexists _; iexact HS

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := rfl

theorem after_6 (c : Dev nD) (t : Fin cfg1.N) : (dat V c).after 6 t = (outsAt V c t.val t.isLt).1 := rfl

theorem before1_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before1_1 (c : Dev nD) (t : Fin cfg1.N) (d) : (dat V c).before 1 t d = iblk V c 1 t :=
  ((dat V c).before_in_eq_fetched 1 rfl (fun _ => rfl) (fun _ _ _ => rfl) (fun _ => rfl) t d).trans rfl
theorem before1_2 (c : Dev nD) (t : Fin cfg1.N) (d) : (dat V c).before 2 t d = iblk V c 2 t :=
  ((dat V c).before_in_eq_fetched 2 rfl (fun _ => rfl) (fun _ _ _ => rfl) (fun _ => rfl) t d).trans rfl
theorem before1_3 (c : Dev nD) (t : Fin cfg1.N) (d) : (dat V c).before 3 t d = iblk V c 3 t :=
  ((dat V c).before_in_eq_fetched 3 rfl (fun _ => rfl) (fun _ _ _ => rfl) (fun _ => rfl) t d).trans rfl
theorem before1_4 (c : Dev nD) (t : Fin cfg1.N) (d) : (dat V c).before 4 t d = iblk V c 4 t :=
  ((dat V c).before_in_eq_fetched 4 rfl (fun _ => rfl) (fun _ _ _ => rfl) (fun _ => rfl) t d).trans rfl
theorem before1_5 (c : Dev nD) (t : Fin cfg1.N) (d) : (dat V c).before 5 t d = iblk V c 5 t :=
  ((dat V c).before_in_eq_fetched 5 rfl (fun _ => rfl) (fun _ _ _ => rfl) (fun _ => rfl) t d).trans rfl

/-- What the body is called with at point `t`, -/
def bodyPre (c : Dev nD) (t : Fin cfg1.N) : sProp 𝕄 :=
  iprop(PhiS V c t.val (Nat.le_of_lt t.isLt) ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d)))

/-- and what it returns: the inputs as found, the accumulator at this point's contents. -/
def bodyPost (c : Dev nD) (t : Fin cfg1.N) : sProp 𝕄 :=
  iprop(iprop(iprop(owns (c : Thread nD τ) scM1_0 fullShare ((outsAt V c t.val t.isLt).2) ∗ Rest1 c) ∗ (∃ r, prngReg c r)) ∗ (dat V c).owesAt () t.castSucc
    ∗ owns (c : Thread nD τ) (ms1_0 t) fullShare (iblk V c 0 t)
    ∗ owns (c : Thread nD τ) (ms1_1 t) fullShare (iblk V c 1 t)
    ∗ owns (c : Thread nD τ) (ms1_2 t) fullShare (iblk V c 2 t)
    ∗ owns (c : Thread nD τ) (ms1_3 t) fullShare (iblk V c 3 t)
    ∗ owns (c : Thread nD τ) (ms1_4 t) fullShare (iblk V c 4 t)
    ∗ owns (c : Thread nD τ) (ms1_5 t) fullShare (iblk V c 5 t)
    ∗ (dat V c).leavesExact 6 t)

set_option maxHeartbeats 8000000 in
/-- The body at any point: `t % 24` says which case; the accumulator is taken at what the point before left (anything at a reset) and handed back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  by_cases h1 : t.val % 24 = 23
  · have h0 : ¬t.val % 24 = 0 := by omega
    rw [show (dat V c).leavesExact 6 t = owns (c : Thread nD τ) (ms1_6 t) fullShare ((dat V c).after 6 t) from by
      unfold Dat.leavesExact; rw [live1_6 t h1], after_6, outsAt_C V c t h0 h1, PhiS_pos V c t.val _ (by omega)]
    unfold out1_C_6 sout1_C_0; dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_C c (grid1.coords t) _ _ _ _ _ _ _ _ _ _ _ _ _ _ _ _ (mt (hcond1_0 t).mp h0) ((hcond1_1 t).mpr h1) (iblk V c 0 t) (iblk V c 1 t) (iblk V c 2 t) (iblk V c 3 t) (iblk V c 4 t) (iblk V c 5 t) _).2.2 Set.univ _)
    iframe H0 H1 H2 H3 H4 H5 HS0
    isplitl [H6]; · iexists _; iexact H6
    iintro ⟨H0, H1, H2, H3, H4, H5, H6, HS0⟩
    iframe HR Hg Ho H0 H1 H2 H3 H4 H5
    isplitl [HS0]
    · iapply owns_writes c _ _ _ _ _ (scover1_C_0 c _ _ _ _ _ _ _ _ _ _ _ _ _ _ _ _ _ _ _ _ _ _ _ _ _ _); iexact HS0
    iapply owns_writes c _ _ _ _ _ (cover1_C_6 c _ _ _ _ _ _ _ _ _ _ _ _ _ _ _ _ _ _ _ _ _ _ _ _ _ _); iexact H6
  · rw [Dat.leavesExact_idle (dat V c) 6 t (idle1_6 t h1).1 (idle1_6 t h1).2]
    by_cases h0 : t.val % 24 = 0
    · rw [outsAt_A V c t h0 h1]
      unfold sout1_A_0; dsimp only
      refine (sep_mono_left (PhiS_any V c _ _)).trans ?_
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (mt (hcond1_1 t).mp h1) (iblk V c 0 t) (iblk V c 1 t) (iblk V c 2 t) (iblk V c 3 t) (iblk V c 4 t) (iblk V c 5 t)).2.2 _ Set.univ _)
      iframe H0 H1 H2 H3 H4 H5 H6 HS0
      iintro ⟨H0, H1, H2, H3, H4, H5, H6, HS0⟩
      iframe HR Hg Ho H0 H1 H2 H3 H4 H5
      isplitl [HS0]
      · iapply owns_writes c _ _ _ _ _ (scover1_A_0 c _ _ _ _ _ _ _ _ _ _ _ _ _ _ _ _ _ _ _ _ _ _ _ _ _); iexact HS0
      iexists _; iexact H6
    · rw [outsAt_B V c t h0 h1, PhiS_pos V c t.val _ (by omega)]
      unfold sout1_B_0; dsimp only
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (mt (hcond1_0 t).mp h0) (mt (hcond1_1 t).mp h1) (iblk V c 0 t) (iblk V c 1 t) (iblk V c 2 t) (iblk V c 3 t) (iblk V c 4 t) (iblk V c 5 t) _).2.2 _ Set.univ _)
      iframe H0 H1 H2 H3 H4 H5 H6 HS0
      iintro ⟨H0, H1, H2, H3, H4, H5, H6, HS0⟩
      iframe HR Hg Ho H0 H1 H2 H3 H4 H5
      isplitl [HS0]
      · iapply owns_writes c _ _ _ _ _ (scover1_B_0 c _ _ _ _ _ _ _ _ _ _ _ _ _ _ _ _ _ _ _ _ _ _ _ _ _ _); iexact HS0
      iexists _; iexact H6

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := .rfl

theorem hout (c : Dev nD) : (dat V c).Φ (Fin.last cfg1.N) ⊢ Pipeline.ΦA spec1 c :=
  (PhiS_any V c cfg1.N le_rfl).trans (Entails.of_eq (PhiA1_eq c).symm)

end Region

end Cert.KernelIdeal.R1

end
-- ==== Proof.KIdeal.Run.lean ====
import proofs.«170924_j68367289418164_1_alg».proof.Proof.KIdeal.R0Data
import proofs.«170924_j68367289418164_1_alg».proof.Proof.KIdeal.R1Data
import proofs.«170924_j68367289418164_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E0 (c : Dev nD) (b : Ref sig .tc) : Buf (Elt F) ((c : Thread nD τ).loc b) := V1 m c b
def X2 (c : Dev nD) : Valuation τ sig (Elt F) :=
  Pipeline.withArrays spec0 c (V1 m c) fun w => (R0.dat (E0 m) c).arrAt w cfg0.N
def outs2 : Outs (F := F) := fun _ r c => X2 m c r
abbrev E1 (c : Dev nD) (b : Ref sig .tc) : Buf (Elt F) ((c : Thread nD τ).loc b) := V3 m (outs2 m) c b
def X4 (c : Dev nD) : Valuation τ sig (Elt F) :=
  Pipeline.withArrays spec1 c (V3 m (outs2 m) c) fun w => (R1.dat (E1 m) c).arrAt w cfg1.N
def outs : Outs (F := F) := fun J r c => match J with | 2 => X2 m c r | _ => X4 m c r

abbrev F0 (c : Dev nD) (b : Ref sig .tc) : Buf (Elt F) ((c : Thread nD τ).loc b) := V2 m (outs m) c b
abbrev F1 (c : Dev nD) (b : Ref sig .tc) : Buf (Elt F) ((c : Thread nD τ).loc b) := V4 m (outs m) c b

theorem X2_arr (c : Dev nD) (w : Fin cfg0.W) :
    X2 m c (Proc.devRef .tc (Pipeline.arrRef spec0 w)) = (R0.dat (E0 m) c).arrAt w cfg0.N := by
  unfold X2; exact Pipeline.withArrays_arr spec0 launch0.win.arr_inj c _ _ w
theorem X4_arr (c : Dev nD) (w : Fin cfg1.W) :
    X4 m c (Proc.devRef .tc (Pipeline.arrRef spec1 w)) = (R1.dat (E1 m) c).arrAt w cfg1.N := by
  unfold X4; exact Pipeline.withArrays_arr spec1 launch1.win.arr_inj c _ _ w

theorem F0_out0 (c : Dev nD) : F0 m c main_v7_0 = (R0.dat (E0 m) c).arrAt 3 cfg0.N := by
  refine .trans ?_ (X2_arr m c 3)
  simp (disch := (apply StableHlo.devRef_ne_of_ne; decide)) only [F0, V2, Function.update_of_ne, Function.update_self]
  rfl
theorem F0_out1 (c : Dev nD) : F0 m c main_v7_1 = (R0.dat (E0 m) c).arrAt 4 cfg0.N := by
  refine .trans ?_ (X2_arr m c 4)
  simp (disch := (apply StableHlo.devRef_ne_of_ne; decide)) only [F0, V2, Function.update_of_ne, Function.update_self]
  rfl
theorem F0_out2 (c : Dev nD) : F0 m c main_v7_2 = (R0.dat (E0 m) c).arrAt 5 cfg0.N := by
  refine .trans ?_ (X2_arr m c 5)
  simp only [F0, V2, Function.update_self]
  rfl
theorem F1_out (c : Dev nD) : F1 m c main_v44 = (R1.dat (E1 m) c).arrAt 6 cfg1.N := by
  refine .trans ?_ (X4_arr m c 6)
  simp only [F1, V4, Function.update_self]
  rfl

theorem hF0 (c : Dev nD) (w : Fin cfg0.W) : (R0.dat (E0 m) c).arrAt w cfg0.N = F0 m c (Pipeline.arrRef spec0 w) :=
  have hi (w : Fin cfg0.W) (hw) (h) := ((R0.dat (E0 m) c).arrAt_in w hw _).trans
    ((R0.A_eq (E0 m) c w).trans (V2_of m (outs m) c (Pipeline.arrRef spec0 w) h).symm)
  match w with
  | ⟨0, _⟩ => hi 0 rfl (by decide)
  | ⟨1, _⟩ => hi 1 rfl (by decide)
  | ⟨2, _⟩ => hi 2 rfl (by decide)
  | ⟨3, _⟩ => (F0_out0 m c).symm
  | ⟨4, _⟩ => (F0_out1 m c).symm
  | ⟨5, _⟩ => (F0_out2 m c).symm
theorem hrest0 (c : Dev nD) : ∀ b, b ∉ Finset.univ.image (Pipeline.arrRef spec0) → F0 m c b = E0 m c b :=
  fun b hb => V2_of m (outs m) c b (by
    intro h
    simp only [List.mem_cons, List.mem_nil_iff, or_false] at h
    rcases h with rfl | rfl | rfl
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩))

theorem hF1 (c : Dev nD) (w : Fin cfg1.W) : (R1.dat (E1 m) c).arrAt w cfg1.N = F1 m c (Pipeline.arrRef spec1 w) :=
  have hi (w : Fin cfg1.W) (hw) (h) := ((R1.dat (E1 m) c).arrAt_in w hw _).trans
    ((R1.A_eq (E1 m) c w).trans (V4_of m (outs m) c (Pipeline.arrRef spec1 w) h).symm)
  match w with
  | ⟨0, _⟩ => hi 0 rfl (by decide)
  | ⟨1, _⟩ => hi 1 rfl (by decide)
  | ⟨2, _⟩ => hi 2 rfl (by decide)
  | ⟨3, _⟩ => hi 3 rfl (by decide)
  | ⟨4, _⟩ => hi 4 rfl (by decide)
  | ⟨5, _⟩ => hi 5 rfl (by decide)
  | ⟨6, _⟩ => (F1_out m c).symm
theorem hrest1 (c : Dev nD) : ∀ b, b ∉ Finset.univ.image (Pipeline.arrRef spec1) → F1 m c b = E1 m c b :=
  fun b hb => V4_of m (outs m) c b (by
    intro h
    simp only [List.mem_cons, List.mem_nil_iff, or_false] at h
    rcases h with rfl
    exact hb (Finset.mem_image.mpr ⟨6, Finset.mem_univ _, rfl⟩))

def pdats : (p : Fin 2) → (c : Dev nD) → Dat τ (Elt F) Unit ℕ (UR sig nD τ) ℕ (Pipeline.pin (pcfgs (F := F)) adm p) c
  | ⟨0, _⟩ => fun c => R0.dat (E0 m) c
  | ⟨1, _⟩ => fun c => R1.dat (E1 m) c
abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)
abbrev Er : Fin 3 → Dev nD → sProp 𝕄 := fun _ c => Rr c

theorem hE2 (c : Dev nD) : (Rr c : sProp 𝕄) ⊢ iprop(∃ W, owes (c : Thread nD τ) (0 : CellTallies nD τ sig Unit) W) := by
  iintro ⟨-, H⟩
  iexact H

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E0 m) c).loose
  hwaits := Pipeline.hwaits_of_owed_zero _ _ _ _ L lv 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.hin (E0 m) c)
    unfold Pipeline.ΦA
    iintro ⟨Hp, -, Hr⟩
    isplitl [Hr]; · iexact Hr
    iexact Hp
  hout c := by
    rw [Pipeline.ownSems0_none]
    refine (R0.hout (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (F0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E1 m) c).loose
  hwaits := Pipeline.hwaits_of_owed_zero _ _ _ _ L lv 1 fun _ _ => rfl
  pre c := iprop(StableHlo.held (c : Thread nD τ) (Pipeline.ucRefs τ sig) (V3 m (outs2 m) c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R1.hin (E1 m) c)
    unfold Pipeline.ΦA
    iintro ⟨Hp, -, Hr⟩
    isplitl [Hr]; · iexact Hr
    iexact Hp
  hout c := by
    rw [Pipeline.ownSems0_none]
    refine (R1.hout (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (F1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (seg0 m 𝒱₀ L lv Er),
    .region (reg0 m),
    .host (seg2 m (outs m) 𝒱₀ L lv Er),
    .region (reg1 m),
    .host (seg4 m (outs m) 𝒱₀ L lv Er) ]

theorem main_run (c : Dev nD) : main (F := F) c = Pipeline.Seg.run (segs m) := (main_chain c).trans (by chain_rfl)

set_option backward.isDefEq.respectTransparency.types false in
theorem run_main : θ_run defs (onTc (τ := τ) (main (F := F))) ⟨m, fun _ => 0, ρ⟩ (fun r => ∀ c : Dev nD,
      r.2.mem ((c.tc : Thread nD τ).loc main_v46) = V5 m (outs m) c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V5 m (outs m) c))
    (hch := ⟨fun _ => .rfl, fun _ => .rfl, fun _ => .rfl, fun _ => .rfl, fun _ => .rfl, fun c => sep_mono .rfl (hE2 c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m (outs m) c b)
    (hfin := fun c s' => by
      iintro ⟨Hh, HSI⟩
      unfold StableHlo.held
      imodintro
      iapply (pointsTo_read_all (Pipeline.ucRefs τ sig) (fun b => (((c : Thread nD τ)).1, b)) (V5 m (outs m) c) s')
      isplitl [Hh] <;> iassumption)
    (hQ := fun s h c =>
      have k (b) (hb) := h c _ (mem_uc b hb)
      ⟨k main_v46 (by decide), (k main_arg0 (by decide)).trans (V5_main_arg0 m (outs m) c),
       (k main_arg1 (by decide)).trans (V5_main_arg1 m (outs m) c), (k main_arg2 (by decide)).trans (V5_main_arg2 m (outs m) c),
       (k main_arg3 (by decide)).trans (V5_main_arg3 m (outs m) c), (k main_arg4 (by decide)).trans (V5_main_arg4 m (outs m) c)⟩)

end Cert.KernelIdeal.Run

end
-- ==== Proof.Spec.lean ====
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

abbrev S0 : Shape := ⟨0, ![]⟩
abbrev B1 : Shape := ⟨1, ![64]⟩
abbrev C1 : Shape := ⟨2, ![64, 1]⟩
abbrev R1 : Shape := ⟨2, ![1, 64]⟩
abbrev Q : Shape := ⟨2, ![64, 64]⟩

theorem bc_S0_C1 : S0.BroadcastsInDim C1 (![] : Fin 0 → Fin C1.rank) := by decide
theorem bc_S0_B1 : S0.BroadcastsInDim B1 (![] : Fin 0 → Fin B1.rank) := by decide
theorem bc_C1_Q : C1.BroadcastsInDim Q (![0, 1] : Fin 2 → Fin Q.rank) := by decide
theorem bc_R1_Q : R1.BroadcastsInDim Q (![0, 1] : Fin 2 → Fin Q.rank) := by decide
theorem bc_B1_C1 : B1.BroadcastsInDim C1 (![0] : Fin 1 → Fin C1.rank) := by decide
theorem red_Q_B1 : Q.ReducesTo [1] B1 := by decide
theorem pos_S0 : 0 < S0.numel := by decide

/-- The weights as one chain of whole-array operations: the row-wise softmax of minus the scaled squared distances. -/
def wts (t : FVec Ideal C1 .f32) (n2 : FVec Ideal C1 .f32) (d2r : FVec Ideal R1 .f32) (cr : FVec Ideal Q .f32) : FVec Ideal Q .f32 :=
  have v11 : FVec Ideal C1 .f32 := broadcastInDim C1 ![] bc_S0_C1 (constant (F := Ideal) S0 .f32 0x3F800000#32)
  have v12 : FVec Ideal C1 .f32 := subf v11 t
  have v13 : FVec Ideal C1 .f32 := mulf v12 v12
  have v14 : FVec Ideal C1 .f32 := broadcastInDim C1 ![] bc_S0_C1 (constant (F := Ideal) S0 .f32 0x322BCC77#32)
  have v15 : FVec Ideal C1 .f32 := addf v13 v14
  have v17 : FVec Ideal C1 .f32 := broadcastInDim C1 ![] bc_S0_C1 (constant (F := Ideal) S0 .f32 0x40000000#32)
  have v18 : FVec Ideal C1 .f32 := mulf v17 t
  have v19 : FVec Ideal Q .f32 := broadcastInDim Q ![0, 1] bc_C1_Q v18
  have v20 : FVec Ideal Q .f32 := mulf v19 cr
  have v21 : FVec Ideal Q .f32 := broadcastInDim Q ![0, 1] bc_C1_Q n2
  have v22 : FVec Ideal Q .f32 := subf v21 v20
  have v23 : FVec Ideal C1 .f32 := mulf t t
  have v24 : FVec Ideal Q .f32 := broadcastInDim Q ![0, 1] bc_C1_Q v23
  have v25 : FVec Ideal Q .f32 := broadcastInDim Q ![0, 1] bc_R1_Q d2r
  have v26 : FVec Ideal Q .f32 := mulf v24 v25
  have v27 : FVec Ideal Q .f32 := addf v22 v26
  have v28 : FVec Ideal C1 .f32 := broadcastInDim C1 ![] bc_S0_C1 (constant (F := Ideal) S0 .f32 0x40000000#32)
  have v29 : FVec Ideal C1 .f32 := mulf v28 v15
  have v30 : FVec Ideal Q .f32 := broadcastInDim Q ![0, 1] bc_C1_Q v29
  have v31 : FVec Ideal Q .f32 := Host.divf v27 v30
  have v32 : FVec Ideal Q .f32 := Host.negf v31
  have v33 : FVec Ideal B1 .f32 := Host.reduce FloatOps.maximumf v32 (constant (F := Ideal) S0 .f32 0xFF800000#32) red_Q_B1 pos_S0
  have v34 : FVec Ideal B1 .f32 := broadcastInDim B1 ![] bc_S0_B1 (constant (F := Ideal) S0 .f32 0xFF800000#32)
  have v35 : FVec Ideal B1 .f32 := maximumf v34 v33
  have v36 : FVec Ideal C1 .f32 := broadcastInDim C1 ![0] bc_B1_C1 v35
  have v37 : FVec Ideal Q .f32 := broadcastInDim Q ![0, 1] bc_C1_Q v36
  have v38 : FVec Ideal Q .f32 := subf v32 v37
  have v39 : FVec Ideal Q .f32 := Host.exp v38
  have v40 : FVec Ideal B1 .f32 := Host.reduceAdd v39 (constant (F := Ideal) S0 .f32 0x00000000#32) red_Q_B1 pos_S0
  have v41 : FVec Ideal C1 .f32 := broadcastInDim C1 ![0] bc_B1_C1 v40
  have v42 : FVec Ideal Q .f32 := broadcastInDim Q ![0, 1] bc_C1_Q v41
  Host.divf v39 v42

section
variable (D Z P V : Fin 64 → Fin 196608 → EReal) (tm : Fin 64 → EReal)

def tq (b : Fin 64) : EReal := tm b * Ideal.ofBits .f32 0x3F7D70A4#32

def noised (b : Fin 64) (d : Fin 196608) : EReal := Z b d + tq tm b * (D b d - Z b d)

def d2 (j : Fin 64) : EReal := ∑ d : Fin 196608, D j d * D j d

def n2 (b : Fin 64) : EReal := ∑ d : Fin 196608, noised D Z tm b d * noised D Z tm b d

def cross (b j : Fin 64) : EReal := ∑ d : Fin 196608, noised D Z tm b d * D j d

def tcolA : FVec Ideal C1 .f32 := fun i => tq tm ⟨(i 0).val, idx2_lt0 i⟩
def n2colA : FVec Ideal C1 .f32 := fun i => n2 D Z tm ⟨(i 0).val, idx2_lt0 i⟩
def d2rowA : FVec Ideal R1 .f32 := fun i => d2 D ⟨(i 1).val, idx2_lt1 i⟩
def crossA : FVec Ideal Q .f32 := fun i => cross D Z tm ⟨(i 0).val, idx2_lt0 i⟩ ⟨(i 1).val, idx2_lt1 i⟩

def W (b j : Fin 64) : EReal := wts (tcolA tm) (n2colA D Z tm) (d2rowA D) (crossA D Z tm) (ix2 b j)

def mix (b : Fin 64) (d : Fin 196608) : EReal := ∑ j : Fin 64, W D Z tm b j * D j d

/-- The loss entry of row `b`, feature `d`. -/
def loss (b : Fin 64) (d : Fin 196608) : EReal :=
  let e := Ideal.exp (V b d)
  let f := D b d - Z b d
  let u := Ideal.div (mix D Z tm b d - noised D Z tm b d)
    (Ideal.ofBits .f32 0x3F800000#32 - tq tm b + Ideal.ofBits .f32 0x322BCC77#32)
  e * (Ideal.div ((P b d - f) * (P b d - f)) (Ideal.ofBits .f32 0x40000000#32 * e)
        + Ideal.ofBits .f32 0x3F000000#32 * V b d
        + Ideal.div (u * u - f * f) (Ideal.ofBits .f32 0x40000000#32 * e))

/-- The mean of the loss entries over all 64 · 196608 of them. -/
def result : EReal :=
  Ideal.div (Ideal.ofBits .f32 0x00000000#32 + ∑ b : Fin 64, ∑ d : Fin 196608, loss D Z P V tm b d)
    (Ideal.ofBits .f32 0x4B400000#32)

end

section
variable (D Z P V : Fin 64 → Fin 196608 → EReal) (T : Fin 64 → EReal) (Wm : Fin 64 → Fin 64 → EReal)

def noisedG (b : Fin 64) (d : Fin 196608) : EReal := Z b d + T b * (D b d - Z b d)

def mixG (b : Fin 64) (d : Fin 196608) : EReal := ∑ j : Fin 64, Wm b j * D j d

def lossG (b : Fin 64) (d : Fin 196608) : EReal :=
  let e := Ideal.exp (V b d)
  let f := D b d - Z b d
  let u := Ideal.div (mixG D Wm b d - noisedG D Z T b d)
    (Ideal.ofBits .f32 0x3F800000#32 - T b + Ideal.ofBits .f32 0x322BCC77#32)
  e * (Ideal.div ((P b d - f) * (P b d - f)) (Ideal.ofBits .f32 0x40000000#32 * e)
        + Ideal.ofBits .f32 0x3F000000#32 * V b d
        + Ideal.div (u * u - f * f) (Ideal.ofBits .f32 0x40000000#32 * e))

end

theorem noised_eq (D Z : Fin 64 → Fin 196608 → EReal) (tm : Fin 64 → EReal) : noised D Z tm = noisedG D Z (tq tm) := rfl
theorem mix_eq (D Z : Fin 64 → Fin 196608 → EReal) (tm : Fin 64 → EReal) : mix D Z tm = mixG D (W D Z tm) := rfl
theorem loss_eq (D Z P V : Fin 64 → Fin 196608 → EReal) (tm : Fin 64 → EReal) :
    loss D Z P V tm = lossG D Z P V (tq tm) (W D Z tm) := rfl

/-- Feature `f` of tile `k` of half `p`: 196608 = 2 · 24 · 4096. -/
def col (p : Fin 2) (k : Fin 24) (f : Fin 4096) : Fin 196608 :=
  ⟨(24 * p.val + k.val) * 4096 + f.val, by have := p.isLt; have := k.isLt; have := f.isLt; omega⟩

abbrev A4 : Shape := ⟨4, ![64, 3, 256, 256]⟩
abbrev M2 : Shape := ⟨2, ![64, 196608]⟩

theorem sc_A4_M2 : A4.ShapeCasts M2 := by decide

/-- A [64, 3, 256, 256] array as the 64 × 196608 table of its rows. -/
def tab (x : FVec Ideal A4 .f32) (b : Fin 64) (d : Fin 196608) : EReal := shapeCast M2 x sc_A4_M2 (ix2 b d)

def tvec (x : FVec Ideal B1 .f32) (b : Fin 64) : EReal := x (ix1 b)

def resultOf (x0 x1 : FVec Ideal A4 .f32) (x2 : FVec Ideal B1 .f32) (x3 x4 : FVec Ideal A4 .f32) : FVec Ideal S0 .f32 :=
  fun _ => result (tab x0) (tab x1) (tab x3) (tab x4) (tvec x2)

end Cert.Spec

end
-- ==== Proof.LibKeepdims.lean ====
import Idealize.ShloMosaic.Lib.Pipeline.Value
import Idealize.ShloMosaic.Lib.ValueIdx

namespace Cert.LibKeepdims

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KIdeal.BridgeA.lean ====
import proofs.«170924_j68367289418164_1_alg».proof.Proof.KIdeal.Run
import proofs.«170924_j68367289418164_1_alg».proof.Proof.Spec
import proofs.«170924_j68367289418164_1_alg».proof.Proof.LibKeepdims
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Bridge

open Idealize.ShloMosaic Idealize.ShloMosaic.ValueIdx Idealize.ShloMosaic.TcCoe Idealize.SL.Sem
open Cert.KernelIdeal Cert.KernelIdeal.Gen Cert.KernelIdeal.Run
open Cert.Spec (tab tvec tq wts)

variable (m : (ℓ : Loc nD τ sig) → Buf (Elt Ideal) ℓ) (c : Dev nD)

abbrev a0 : FVec Ideal S64x3x256x256 .f32 := m ((c.tc : Thread nD τ).loc main_arg0)
abbrev a1 : FVec Ideal S64x3x256x256 .f32 := m ((c.tc : Thread nD τ).loc main_arg1)
abbrev a2 : FVec Ideal S64 .f32 := m ((c.tc : Thread nD τ).loc main_arg2)
abbrev a3 : FVec Ideal S64x3x256x256 .f32 := m ((c.tc : Thread nD τ).loc main_arg3)
abbrev a4 : FVec Ideal S64x3x256x256 .f32 := m ((c.tc : Thread nD τ).loc main_arg4)

theorem E0_v0 : (E0 m c main_v0 : FVec Ideal S64x196608 .f32) = shapeCast S64x196608 (a0 m c) shapeCasts_S64x3x256x256_S64x196608 := by
  show StableHlo.after hostOps0 (V0 m c) (Proc.devRef .tc main_v0) = _
  after_results; rfl
theorem E0_v1 : (E0 m c main_v1 : FVec Ideal S64x196608 .f32) = shapeCast S64x196608 (a1 m c) shapeCasts_S64x3x256x256_S64x196608 := by
  show StableHlo.after hostOps0 (V0 m c) (Proc.devRef .tc main_v1) = _
  after_results; rfl
theorem E0_v2 : (E0 m c main_v2 : FVec Ideal S64x196608 .f32) = shapeCast S64x196608 (a3 m c) shapeCasts_S64x3x256x256_S64x196608 := by
  show StableHlo.after hostOps0 (V0 m c) (Proc.devRef .tc main_v2) = _
  after_results; rfl
theorem E0_v3 : (E0 m c main_v3 : FVec Ideal S64x196608 .f32) = shapeCast S64x196608 (a4 m c) shapeCasts_S64x3x256x256_S64x196608 := by
  show StableHlo.after hostOps0 (V0 m c) (Proc.devRef .tc main_v3) = _
  after_results; rfl
theorem E0_v6 : (E0 m c main_v6 : FVec Ideal S64x1 .f32)
    = shapeCast S64x1 (mulf (a2 m c) (broadcastInDim S64 ![] bcast_S_S64 (constant (F := Ideal) S_ .f32 0x3F7D70A4#32))) shapeCasts_S64_S64x1 := by
  show StableHlo.after hostOps0 (V0 m c) (Proc.devRef .tc main_v6) = _
  after_results; rfl

theorem E0_data (b : Fin 64) (d : Fin 196608) : E0 m c main_v0 (ix2 b d) = tab (a0 m c) b d := by
  rw [E0_v0]; rfl
theorem E0_noise (b : Fin 64) (d : Fin 196608) : E0 m c main_v1 (ix2 b d) = tab (a1 m c) b d := by
  rw [E0_v1]; rfl
theorem E0_time (b : Fin 64) : E0 m c main_v6 (ix2 b (0 : Fin 1)) = tq (tvec (a2 m c)) b := by
  rw [E0_v6]
  refine (Cert.LibKeepdims.shapeCast_a_a1_apply _ _ b 0).trans ?_
  rw [mulf_apply, broadcastInDim_apply _ bcast_S_S64 _ (ix1 b) ix0 (fun ax => ax.elim0)]
  rfl

theorem V2_outs : V2 m (outs m) c = V2 m (outs2 m) c := rfl

/-- A buffer neither the first pass nor the middle host operations write reaches the second pass as the first found it. -/
theorem E1_keep (b : Ref sig .tc) (h1 : b ∉ hostOps1_W) (h2 : b ∉ ([main_v7_0, main_v7_1, main_v7_2] : List (Ref sig .tc))) :
    E1 m c b = E0 m c b :=
  (V3_of m (outs2 m) c b h1).trans (V2_of m (outs2 m) c b h2)

theorem E1_v0 : E1 m c main_v0 = E0 m c main_v0 := E1_keep m c main_v0 (by decide) (by decide)
theorem E1_v1 : E1 m c main_v1 = E0 m c main_v1 := E1_keep m c main_v1 (by decide) (by decide)
theorem E1_v2 : E1 m c main_v2 = E0 m c main_v2 := E1_keep m c main_v2 (by decide) (by decide)
theorem E1_v3 : E1 m c main_v3 = E0 m c main_v3 := E1_keep m c main_v3 (by decide) (by decide)
theorem E1_v6 : E1 m c main_v6 = E0 m c main_v6 := E1_keep m c main_v6 (by decide) (by decide)

theorem E1_data (b : Fin 64) (d : Fin 196608) : E1 m c main_v0 (ix2 b d) = tab (a0 m c) b d := by rw [E1_v0]; exact E0_data m c b d
theorem E1_noise (b : Fin 64) (d : Fin 196608) : E1 m c main_v1 (ix2 b d) = tab (a1 m c) b d := by rw [E1_v1]; exact E0_noise m c b d
theorem E1_pmean (b : Fin 64) (d : Fin 196608) : E1 m c main_v2 (ix2 b d) = tab (a3 m c) b d := by rw [E1_v2, E0_v2]; rfl
theorem E1_plogv (b : Fin 64) (d : Fin 196608) : E1 m c main_v3 (ix2 b d) = tab (a4 m c) b d := by rw [E1_v3, E0_v3]; rfl
theorem E1_time (b : Fin 64) : E1 m c main_v6 (ix2 b (0 : Fin 1)) = tq (tvec (a2 m c)) b := by rw [E1_v6]; exact E0_time m c b

def d2K : FVec Ideal S64x1 .f32 := Host.reduceAdd (F0 m c main_v7_0) (constant (F := Ideal) S_ .f32 0x00000000#32) reducesTo_S2x64x1_S64x1_d0 h_S_
def n2K : FVec Ideal S64x1 .f32 := Host.reduceAdd (F0 m c main_v7_1) (constant (F := Ideal) S_ .f32 0x00000000#32) reducesTo_S2x64x1_S64x1_d0 h_S_
def crK : FVec Ideal S64x64 .f32 := Host.reduceAdd (F0 m c main_v7_2) (constant (F := Ideal) S_ .f32 0x00000000#32) reducesTo_S2x64x64_S64x64_d0 h_S_

set_option maxHeartbeats 4000000 in
theorem E1_weights_raw : (E1 m c main_v43 : FVec Ideal S64x64 .f32)
    = wts (V2 m (outs2 m) c main_v6)
        (Host.reduceAdd (V2 m (outs2 m) c main_v7_1) (constant (F := Ideal) S_ .f32 0x00000000#32) reducesTo_S2x64x1_S64x1_d0 h_S_)
        (shapeCast S1x64 (Host.reduceAdd (V2 m (outs2 m) c main_v7_0) (constant (F := Ideal) S_ .f32 0x00000000#32) reducesTo_S2x64x1_S64x1_d0 h_S_) shapeCasts_S64x1_S1x64)
        (Host.reduceAdd (V2 m (outs2 m) c main_v7_2) (constant (F := Ideal) S_ .f32 0x00000000#32) reducesTo_S2x64x64_S64x64_d0 h_S_) := by
  show StableHlo.after hostOps1 (V2 m (outs2 m) c) (Proc.devRef .tc main_v43) = _
  after_results
  unfold Cert.Spec.wts
  rfl

theorem E1_weights : (E1 m c main_v43 : FVec Ideal S64x64 .f32)
    = wts (F0 m c main_v6) (n2K m c) (shapeCast S1x64 (d2K m c) shapeCasts_S64x1_S1x64) (crK m c) :=
  E1_weights_raw m c

theorem F0_v6 : F0 m c main_v6 = E0 m c main_v6 := V2_of m (outs m) c main_v6 (by decide)

theorem result_term : (V5 m (outs m) c main_v46 : FVec Ideal S_ .f32)
    = Host.divf (Host.reduceAdd (F1 m c main_v44) (constant (F := Ideal) S_ .f32 0x00000000#32) reducesTo_S2x1x1_S_d0_1_2 h_S_)
        (constant (F := Ideal) S_ .f32 0x4B400000#32) := by
  show StableHlo.after hostOps2 (V4 m (outs m) c) (Proc.devRef .tc main_v46) = _
  after_results

end Cert.KernelIdeal.Bridge

end
-- ==== Proof.KIdeal.R0ValA.lean ====
import proofs.«170924_j68367289418164_1_alg».proof.Proof.KIdeal.R0RunC
import Idealize.ShloMosaic.Lib.Pipeline.Value
import Idealize.ShloMosaic.Lib.Tactic

set_option maxRecDepth 16384

noncomputable section

namespace Cert.KernelIdeal.R0V

open Idealize.ShloMosaic Idealize.ShloMosaic.Tactic
open Cert.KernelIdeal.Gen Cert.KernelIdeal.R0

variable {F : FTy → Type} [FloatOps F] {c : Dev nD} {i : grid0.Coords} {arg2 : Memref sig .tc .vmem S64x4096 .f32} {harg2 : arg2.IsWhole} {arg3 : Memref sig .tc .vmem S64x4096 .f32} {harg3 : arg3.IsWhole} {arg4 : Memref sig .tc .vmem S64x1 .f32} {harg4 : arg4.IsWhole} {arg5 : Memref sig .tc .vmem S1x64x1 .f32} {harg5 : arg5.IsWhole} {arg6 : Memref sig .tc .vmem S1x64x1 .f32} {harg6 : arg6.IsWhole} {arg7 : Memref sig .tc .vmem S1x64x64 .f32} {harg7 : arg7.IsWhole} {arg8 : Memref sig .tc .vmem S64x1 .f32} {harg8 : arg8.IsWhole} {arg9 : Memref sig .tc .vmem S64x1 .f32} {harg9 : arg9.IsWhole} {arg10 : Memref sig .tc .vmem S64x64 .f32} {harg10 : arg10.IsWhole} {x0 x1 : Vec F S64x4096 .f32} {x2 : Vec F S64x1 .f32} {xs0 xs1 : Vec F S64x1 .f32} {xs2 : Vec F S64x64 .f32}

theorem hz2 : (![0, 0] : Fin 2 → Nat) = fun _ => 0 := funext fun a => by fin_cases a <;> rfl
theorem hz3 : (![0, 0, 0] : Fin 3 → Nat) = fun _ => 0 := funext fun a => by fin_cases a <;> rfl

/-- On the first tile of a half the accumulators are the update of zero. -/
theorem canonA {hc0 : cond0 i} {hc1 : ¬cond1 i} :
    let r := kernelRun_A c i arg2 harg2 arg3 harg3 arg4 harg4 arg5 harg5 arg6 harg6 arg7 harg7 arg8 harg8 arg9 harg9 arg10 harg10 hc0 hc1 x0 x1 x2
    View.canon r.2.2.2.1 = k0_pay10 x0 (k0_pay5 (F := F)) ∧ View.canon r.2.2.2.2.1 = k0_pay11 x0 x1 x2 (k0_pay6 (F := F)) ∧ View.canon r.2.2.2.2.2.1 = k0_pay1 (k0_pay12 x0 x1 x2 (k0_pay7 (F := F))) := by
  unfold kernelRun_A
  dsimp only
  sl_unfold_words
  refine ⟨?_, ?_, ?_⟩ <;> rw [View.canon_cons_unit_zero] <;> first | exact hz2 | exact hz3 | simp only [View.readAt_eq_ld, harg2.read_unread, harg3.read_unread, harg4.read_unread, harg8.read_unread, harg9.read_unread, harg10.read_unread, View.ld_unit_zero (S := S64x4096) hz2, View.ld_unit_zero (S := S64x1) hz2, View.ld_unit_zero (S := S64x64) hz2, View.readCov_unit_zero (S := S64x1) _ hz2, View.readCov_unit_zero (S := S64x64) _ hz2]

/-- On a middle tile they are the update of what they held. -/
theorem canonB {hc0 : ¬cond0 i} {hc1 : ¬cond1 i} :
    let r := kernelRun_B c i arg2 harg2 arg3 harg3 arg4 harg4 arg5 harg5 arg6 harg6 arg7 harg7 arg8 harg8 arg9 harg9 arg10 harg10 hc0 hc1 x0 x1 x2 xs0 xs1 xs2
    View.canon r.2.2.2.1 = k0_pay10 x0 xs0 ∧ View.canon r.2.2.2.2.1 = k0_pay11 x0 x1 x2 xs1 ∧ View.canon r.2.2.2.2.2.1 = k0_pay1 (k0_pay12 x0 x1 x2 xs2) := by
  unfold kernelRun_B
  dsimp only
  sl_unfold_words
  refine ⟨?_, ?_, ?_⟩ <;> rw [View.canon_cons_unit_zero] <;> first | exact hz2 | exact hz3 | simp only [View.readAt_eq_ld, harg2.read_unread, harg3.read_unread, harg4.read_unread, harg8.read_unread, harg9.read_unread, harg10.read_unread, View.ld_unit_zero (S := S64x4096) hz2, View.ld_unit_zero (S := S64x1) hz2, View.ld_unit_zero (S := S64x64) hz2, View.readCov_unit_zero (S := S64x1) _ hz2, View.readCov_unit_zero (S := S64x64) _ hz2]

/-- On the last tile of a half the outputs moreover receive the updated accumulators. -/
theorem canonC {hc0 : ¬cond0 i} {hc1 : cond1 i} :
    let r := kernelRun_C c i arg2 harg2 arg3 harg3 arg4 harg4 arg5 harg5 arg6 harg6 arg7 harg7 arg8 harg8 arg9 harg9 arg10 harg10 hc0 hc1 x0 x1 x2 xs0 xs1 xs2
    (View.canon r.2.2.2.1 = k0_pay10 x0 xs0 ∧ View.canon r.2.2.2.2.1 = k0_pay11 x0 x1 x2 xs1 ∧ View.canon r.2.2.2.2.2.1 = k0_pay1 (k0_pay12 x0 x1 x2 xs2)) ∧ View.canon r.1 = k0_pay2 (k0_pay10 x0 xs0) ∧ View.canon r.2.1 = k0_pay3 (k0_pay11 x0 x1 x2 xs1) ∧ View.canon r.2.2.1 = k0_pay4 (k0_pay1 (k0_pay12 x0 x1 x2 xs2)) := by
  unfold kernelRun_C
  dsimp only
  sl_unfold_words
  refine ⟨⟨?_, ?_, ?_⟩, ?_, ?_, ?_⟩ <;> rw [View.canon_cons_unit_zero] <;> first | exact hz2 | exact hz3 | simp only [View.readAt_eq_ld, harg2.read_unread, harg3.read_unread, harg4.read_unread, harg8.read_unread, harg9.read_unread, harg10.read_unread, View.ld_unit_zero (S := S64x4096) hz2, View.ld_unit_zero (S := S64x1) hz2, View.ld_unit_zero (S := S64x64) hz2, View.readCov_unit_zero (S := S64x1) _ hz2, View.readCov_unit_zero (S := S64x64) _ hz2]

end Cert.KernelIdeal.R0V

end
-- ==== Proof.LibMatmulNT.lean ====
import Idealize.ShloMosaic.Lib.ValueIdx
import Idealize.ShloMosaic.PureOps.Ideal.Laws

noncomputable section

namespace Cert.LibMatmulNT

open Idealize.ShloMosaic Idealize.ShloMosaic.ValueIdx

variable {M K N : Nat}

abbrev ntDims (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], wf⟩

variable (wf : DotDims.WF (⟨2, ![M, K]⟩ : Shape) ⟨2, ![N, K]⟩ ⟨2, ![M, N]⟩ [1] [1] [0] [0] [] [])

theorem lhs_axis0 (j : (⟨2, ![M, N]⟩ : Shape).Idx) (q : (ntDims wf).contr.Idx) :
    ((ntDims wf).lhsIdx j q 0).val = (j 0).val := by
  unfold DotDims.lhsIdx
  rw [dif_neg (show ¬(0 : Fin (⟨2, ![M, K]⟩ : Shape).rank) ∈ (ntDims wf).lhsBatch from List.not_mem_nil),
    dif_pos (show (0 : Fin (⟨2, ![M, K]⟩ : Shape).rank) ∈ (ntDims wf).lhsNonContracting from List.mem_singleton.mpr rfl)]
  rfl
theorem lhs_axis1 (j : (⟨2, ![M, N]⟩ : Shape).Idx) (q : (ntDims wf).contr.Idx) :
    ((ntDims wf).lhsIdx j q 1).val = (q ⟨0, Nat.one_pos⟩).val :=
  (ntDims wf).lhsIdx_val_of_single rfl j q
theorem rhs_axis0 (j : (⟨2, ![M, N]⟩ : Shape).Idx) (q : (ntDims wf).contr.Idx) :
    ((ntDims wf).rhsIdx j q 0).val = (j 1).val := by
  unfold DotDims.rhsIdx
  rw [dif_neg (show ¬(0 : Fin (⟨2, ![N, K]⟩ : Shape).rank) ∈ (ntDims wf).rhsBatch from List.not_mem_nil),
    dif_pos (show (0 : Fin (⟨2, ![N, K]⟩ : Shape).rank) ∈ (ntDims wf).rhsNonContracting from List.mem_singleton.mpr rfl)]
  rfl
theorem rhs_axis1 (j : (⟨2, ![M, N]⟩ : Shape).Idx) (q : (ntDims wf).contr.Idx) :
    ((ntDims wf).rhsIdx j q 1).val = (q ⟨0, Nat.one_pos⟩).val :=
  (ntDims wf).rhsIdx_val_of_single rfl j q

/-- Contracting both last axes: at (p, q) the sum over k of left (p, k) · right (q, k). -/
theorem matmul_zero_nt_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (ntDims wf) prec lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k := funext fun a => Fin.ext (by
    match a with
    | ⟨0, _⟩ => exact lhs_axis0 wf _ _
    | ⟨1, _⟩ => exact (lhs_axis1 wf _ _).trans hk)
  have er : (ntDims wf).rhsIdx (ix2 p q) ((contrEquiv1 (ntDims wf) K rfl rfl).symm k) = ix2 q k := funext fun a => Fin.ext (by
    match a with
    | ⟨0, _⟩ => exact rhs_axis0 wf _ _
    | ⟨1, _⟩ => exact (rhs_axis1 wf _ _).trans hk)
  rw [el, er]

end Cert.LibMatmulNT

end
-- ==== Proof.KIdeal.R0ValB.lean ====
import proofs.«170924_j68367289418164_1_alg».proof.Proof.Gen.KernelIdeal.Skeleton
import proofs.«170924_j68367289418164_1_alg».proof.Proof.LibKeepdims
import proofs.«170924_j68367289418164_1_alg».proof.Proof.LibMatmulNT
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0V

open Idealize.ShloMosaic Idealize.ShloMosaic.ValueIdx
open Cert.KernelIdeal Cert.KernelIdeal.Gen

variable (x0 x1 : FVec Ideal S64x4096 .f32) (x2 : FVec Ideal S64x1 .f32)

/-- Entry (b, f) of the noised tile. -/
def nzt (b : Fin 64) (f : Fin 4096) : EReal :=
  x1 (ix2 b f) + x2 (ix2 b (0 : Fin 1)) * (x0 (ix2 b f) - x1 (ix2 b f))

theorem pay8_eq : k0_pay8 (F := Ideal) x0 = x0 := by
  unfold k0_pay8
  exact shapeCast_self _ _

theorem pay9_apply (b : Fin 64) (f : Fin 4096) : k0_pay9 (F := Ideal) x0 x1 x2 (ix2 b f) = nzt x0 x1 x2 b f := by
  unfold k0_pay9
  simp only [pay8_eq, shapeCast_self]
  show x1 (ix2 b f) + broadcastTo S64x4096 x2 broadcasts_S64x1_S64x4096 (ix2 b f) * (x0 (ix2 b f) - x1 (ix2 b f)) = _
  rw [Cert.LibKeepdims.broadcastTo_a1_ab_apply]
  rfl

/-- Entry (b, ·) of the row sums laid as a column is the sum of row b. -/
theorem rowsum_apply (y : FVec Ideal S64x4096 .f32) (b : Fin 64) (u : Fin 1) :
    shapeCast S64x1 (multiReduction (F := Ideal) .add [1] S64 y 0x00000000#32 reduces_S64x4096_S64 (.inl rfl) rfl)
        shapeCasts_S64_S64x1 (ix2 b u)
      = ∑ f : Fin 4096, y (ix2 b f) := by
  refine (Cert.LibKeepdims.shapeCast_a_a1_apply _ _ b u).trans ?_
  refine (Ideal.multiReduction_add_single y 0x00000000#32 reduces_S64x4096_S64 (.inl rfl) rfl (ix1 b)).trans ?_
  refine Finset.sum_congr rfl fun k _ => congrArg y ?_
  funext c
  apply Fin.ext
  match c with
  | ⟨0, _⟩ => rfl
  | ⟨1, _⟩ => rfl

/-- The three updates add to an accumulator the squared norms of the data rows, of the noised rows, and the products of noised rows with data rows. -/
theorem pay10_apply (s : FVec Ideal S64x1 .f32) (b : Fin 64) (u : Fin 1) :
    k0_pay10 (F := Ideal) x0 s (ix2 b u) = s (ix2 b u) + ∑ f : Fin 4096, x0 (ix2 b f) * x0 (ix2 b f) := by
  unfold k0_pay10
  simp only [pay8_eq, shapeCast_self]
  exact congrArg (s (ix2 b u) + ·) (rowsum_apply (mulf x0 x0) b u)

theorem pay11_apply (s : FVec Ideal S64x1 .f32) (b : Fin 64) (u : Fin 1) :
    k0_pay11 (F := Ideal) x0 x1 x2 s (ix2 b u) = s (ix2 b u) + ∑ f : Fin 4096, nzt x0 x1 x2 b f * nzt x0 x1 x2 b f := by
  unfold k0_pay11
  simp only [shapeCast_self]
  refine (congrArg (s (ix2 b u) + ·) (rowsum_apply _ b u)).trans ?_
  simp only [mulf_apply, pay9_apply]

theorem pay12_apply (s : FVec Ideal S64x64 .f32) (b j : Fin 64) :
    k0_pay1 (F := Ideal) (k0_pay12 (F := Ideal) x0 x1 x2 s) (ix2 b j) = s (ix2 b j) + ∑ f : Fin 4096, nzt x0 x1 x2 b f * x0 (ix2 j f) := by
  unfold k0_pay1 k0_pay12
  simp only [pay8_eq, shapeCast_self]
  show s (ix2 b j) + _ = _
  refine congrArg (s (ix2 b j) + ·) ?_
  refine (Cert.LibMatmulNT.matmul_zero_nt_apply dot_S64x4096_S64x4096_S64x64_1_1_0_0_n_n_wf none
    (truncf .bf16 (k0_pay9 (F := Ideal) x0 x1 x2) bitsLt_bf16_f32) (truncf .bf16 x0 bitsLt_bf16_f32) b j).trans ?_
  simp only [truncf_apply, pay9_apply]

/-- The accumulators start from zero. -/
theorem pay_zero : (∀ i, k0_pay5 (F := Ideal) i = 0) ∧ (∀ i, k0_pay6 (F := Ideal) i = 0) ∧ (∀ i, k0_pay7 (F := Ideal) i = 0) := by
  refine ⟨fun i => ?_, fun i => ?_, fun i => ?_⟩ <;> simp only [k0_pay5, k0_pay6, k0_pay7, shapeCast_self] <;> exact Ideal.ofBits_zero_f32

/-- An output is an accumulator under a leading unit axis. -/
theorem pay_out (u : Fin 1) (b : Fin 64) :
    (∀ (v : FVec Ideal S64x1 .f32) w, k0_pay2 (F := Ideal) v (ix3 u b w) = v (ix2 b w)) ∧ (∀ (v : FVec Ideal S64x1 .f32) w, k0_pay3 (F := Ideal) v (ix3 u b w) = v (ix2 b w))
      ∧ ∀ (v : FVec Ideal S64x64 .f32) j, k0_pay4 (F := Ideal) v (ix3 u b j) = v (ix2 b j) :=
  ⟨fun v w => shapeCast_ab_1ab_apply v shapeCasts_S64x1_S1x64x1 u b w, fun v w => shapeCast_ab_1ab_apply v shapeCasts_S64x1_S1x64x1 u b w,
    fun v j => shapeCast_ab_1ab_apply v shapeCasts_S64x64_S1x64x64 u b j⟩

end Cert.KernelIdeal.R0V

end
-- ==== Proof.KIdeal.R0ValC.lean ====
import proofs.«170924_j68367289418164_1_alg».proof.Proof.Spec
import proofs.«170924_j68367289418164_1_alg».proof.Proof.KIdeal.R0Data
import proofs.«170924_j68367289418164_1_alg».proof.Proof.KIdeal.R0ValA
import proofs.«170924_j68367289418164_1_alg».proof.Proof.KIdeal.R0ValB
import Idealize.ShloMosaic.Lib.Pipeline.Value
import Idealize.ShloMosaic.Lib.ValueIdx

set_option maxRecDepth 16384

noncomputable section

namespace Cert.KernelIdeal.R0V

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

def Dt (c : Dev nD) (b : Fin 64) (d : Fin 196608) : EReal := V c main_v0 (ix2 b d)
def Zt (c : Dev nD) (b : Fin 64) (d : Fin 196608) : EReal := V c main_v1 (ix2 b d)
def Tt (c : Dev nD) (b : Fin 64) : EReal := V c main_v6 (ix2 b (0 : Fin 1))
def Nt (c : Dev nD) : Fin 64 → Fin 196608 → EReal := Cert.Spec.noisedG (Dt V c) (Zt V c) (Tt V c)

/-- Feature f of tile t. -/
def colT (t : Fin cfg0.N) (f : Fin 4096) : Fin 196608 :=
  ⟨t.val * 4096 + f.val, by have := t.isLt; have h : cfg0.N = 48 := N_0; have := f.isLt; omega⟩

abbrev blk0 (c : Dev nD) (t : Fin cfg0.N) : Vec Ideal S64x4096 .f32 := R0.iblk V c 0 t
abbrev blk1 (c : Dev nD) (t : Fin cfg0.N) : Vec Ideal S64x4096 .f32 := R0.iblk V c 1 t
abbrev blk2 (c : Dev nD) (t : Fin cfg0.N) : Vec Ideal S64x1 .f32 := R0.iblk V c 2 t

theorem idx0 : ∀ t : Fin cfg0.N, win0_0.index t 0 = 0 ∧ win0_0.index t 1 = t.val := by
  show ∀ t : Fin grid0.N, _
  decide +kernel
theorem idx1 : ∀ t : Fin cfg0.N, win0_1.index t 0 = 0 ∧ win0_1.index t 1 = t.val := by
  show ∀ t : Fin grid0.N, _
  decide +kernel
theorem idx2 : ∀ t : Fin cfg0.N, win0_2.index t 0 = 0 ∧ win0_2.index t 1 = 0 := by
  show ∀ t : Fin grid0.N, _
  decide +kernel

theorem blk0_apply (c : Dev nD) (t : Fin cfg0.N) (b : Fin 64) (f : Fin 4096) :
    blk0 V c t (ix2 b f) = Dt V c b (colT t f) := by
  show V c main_v0 _ = V c main_v0 _
  congr 1
  funext a
  apply Fin.ext
  match a with
  | ⟨0, _⟩ => show win0_0.index t 0 * 64 + 1 * b.val = b.val; rw [(idx0 t).1]; omega
  | ⟨1, _⟩ => show win0_0.index t 1 * 4096 + 1 * f.val = t.val * 4096 + f.val; rw [(idx0 t).2]; omega
theorem blk1_apply (c : Dev nD) (t : Fin cfg0.N) (b : Fin 64) (f : Fin 4096) :
    blk1 V c t (ix2 b f) = Zt V c b (colT t f) := by
  show V c main_v1 _ = V c main_v1 _
  congr 1
  funext a
  apply Fin.ext
  match a with
  | ⟨0, _⟩ => show win0_1.index t 0 * 64 + 1 * b.val = b.val; rw [(idx1 t).1]; omega
  | ⟨1, _⟩ => show win0_1.index t 1 * 4096 + 1 * f.val = t.val * 4096 + f.val; rw [(idx1 t).2]; omega
theorem blk2_apply (c : Dev nD) (t : Fin cfg0.N) (b : Fin 64) : blk2 V c t (ix2 b (0 : Fin 1)) = Tt V c b := by
  show V c main_v6 _ = V c main_v6 _
  congr 1
  funext a
  apply Fin.ext
  match a with
  | ⟨0, _⟩ => show win0_2.index t 0 * 64 + 1 * b.val = b.val; rw [(idx2 t).1]; omega
  | ⟨1, _⟩ => show win0_2.index t 1 * 1 + 1 * 0 = 0; rw [(idx2 t).2]

theorem nzt_apply (c : Dev nD) (t : Fin cfg0.N) (b : Fin 64) (f : Fin 4096) :
    nzt (blk0 V c t) (blk1 V c t) (blk2 V c t) b f = Nt V c b (colT t f) := by
  unfold nzt
  rw [blk0_apply, blk1_apply, blk2_apply]
  rfl

/-- The three accumulators, and the numbers they hold row by row. -/
abbrev Acc3 := Vec Ideal S64x1 .f32 × Vec Ideal S64x1 .f32 × Vec Ideal S64x64 .f32
abbrev Num3 := (Fin 64 → EReal) × (Fin 64 → EReal) × (Fin 64 → Fin 64 → EReal)
def val (s : Acc3) : Num3 := (fun b => s.1 (ix2 b 0), fun b => s.2.1 (ix2 b 0), fun b j => s.2.2 (ix2 b j))
def oval (X : R0.Out6 Ideal) : Num3 := (fun b => X.1 (ix3 0 b 0), fun b => X.2.1 (ix3 0 b 0), fun b j => X.2.2.1 (ix3 0 b j))

/-- The body's update of the accumulators at point t. -/
def upd (c : Dev nD) (t : Fin cfg0.N) (s : Acc3) : Acc3 :=
  (k0_pay10 (blk0 V c t) s.1, k0_pay11 (blk0 V c t) (blk1 V c t) (blk2 V c t) s.2.1, k0_pay1 (k0_pay12 (blk0 V c t) (blk1 V c t) (blk2 V c t) s.2.2))

/-- Tile t's contribution: squared norms of the data rows, of the noised rows, and their cross products. -/
def tile (c : Dev nD) (t : Fin cfg0.N) : Num3 :=
  (fun b => ∑ f : Fin 4096, Dt V c b (colT t f) * Dt V c b (colT t f), fun b => ∑ f : Fin 4096, Nt V c b (colT t f) * Nt V c b (colT t f), fun b j => ∑ f : Fin 4096, Nt V c b (colT t f) * Dt V c j (colT t f))

theorem val_upd (c : Dev nD) (t : Fin cfg0.N) (s : Acc3) : val (upd V c t s) = val s + tile V c t := by
  refine Prod.ext (funext fun b => ?_) (Prod.ext (funext fun b => ?_) (funext fun b => funext fun j => ?_)) <;>
    dsimp only [val, upd, tile, Prod.fst_add, Prod.snd_add, Pi.add_apply] <;>
    simp only [pay10_apply, pay11_apply, pay12_apply, nzt_apply, blk0_apply]

theorem val_zero : val (k0_pay5 (F := Ideal), k0_pay6 (F := Ideal), k0_pay7 (F := Ideal)) = 0 := by
  refine Prod.ext (funext fun b => ?_) (Prod.ext (funext fun b => ?_) (funext fun b => funext fun j => ?_)) <;>
    dsimp only [val, Prod.fst_zero, Prod.snd_zero, Pi.zero_apply]
  exacts [pay_zero.1 _, pay_zero.2.1 _, pay_zero.2.2 _]

theorem rc {κ sp s e} {v : View sig κ sp s e} {L : List (View.Piece (Elt Ideal) s e)} {x} (h : View.canon L = x) :
    v.read (Elt Ideal) (v.writes (Elt Ideal) v.junk L) = x := (View.read_writes_junk_eq_canon v L).trans h

theorem accA (c : Dev nD) (t : Fin cfg0.N) (h0 : t.val % 24 = 0) (h1 : ¬t.val % 24 = 23) :
    (R0.outA V c t h0 h1).2.2.2 = upd V c t (k0_pay5 (F := Ideal), k0_pay6 (F := Ideal), k0_pay7 (F := Ideal)) := by
  refine Prod.ext ?_ (Prod.ext ?_ ?_) <;> dsimp only [R0.outA, upd]
  exacts [rc canonA.1, rc canonA.2.1, rc canonA.2.2]
theorem accB (c : Dev nD) (t : Fin cfg0.N) (h0 : ¬t.val % 24 = 0) (h1 : ¬t.val % 24 = 23) (s : Acc3) :
    (R0.outB V c t h0 h1 s.1 s.2.1 s.2.2).2.2.2 = upd V c t s := by
  refine Prod.ext ?_ (Prod.ext ?_ ?_) <;> dsimp only [R0.outB, upd]
  exacts [rc canonB.1, rc canonB.2.1, rc canonB.2.2]
theorem accC (c : Dev nD) (t : Fin cfg0.N) (h0 : ¬t.val % 24 = 0) (h1 : t.val % 24 = 23) (s : Acc3) :
    (R0.outC V c t h0 h1 s.1 s.2.1 s.2.2).2.2.2 = upd V c t s := by
  refine Prod.ext ?_ (Prod.ext ?_ ?_) <;> dsimp only [R0.outC, upd]
  exacts [rc canonC.1.1, rc canonC.1.2.1, rc canonC.1.2.2]
/-- On the last tile of a half the output blocks hold what the accumulators hold. -/
theorem oval_outC (c : Dev nD) (t : Fin cfg0.N) (h0 : ¬t.val % 24 = 0) (h1 : t.val % 24 = 23) (s : Acc3) :
    oval (R0.outC V c t h0 h1 s.1 s.2.1 s.2.2) = val (upd V c t s) := by
  refine Prod.ext (funext fun b => ?_) (Prod.ext (funext fun b => ?_) (funext fun b => funext fun j => ?_)) <;>
    dsimp only [oval, val, R0.outC, upd]
  exacts [(congrFun (rc canonC.2.1) _).trans ((pay_out 0 b).1 _ 0), (congrFun (rc canonC.2.2.1) _).trans ((pay_out 0 b).2.1 _ 0),
    (congrFun (rc canonC.2.2.2) _).trans ((pay_out 0 b).2.2 _ j)]

end Cert.KernelIdeal.R0V

end
-- ==== Proof.KIdeal.R0Val.lean ====
import proofs.«170924_j68367289418164_1_alg».proof.Proof.KIdeal.R0ValC

set_option maxRecDepth 16384

noncomputable section

namespace Cert.KernelIdeal.R0V

open Idealize.ShloMosaic Idealize.ShloMosaic.TcCoe Idealize.ShloMosaic.ValueIdx
open Cert.KernelIdeal Cert.KernelIdeal.Gen

variable {M : Type} [AddCommMonoid M] (g : ℕ → M)

/-- The sum of g over the points of n's half up to n. -/
def psum (n : ℕ) : M := ∑ i ∈ Finset.range (n % 24 + 1), g (24 * (n / 24) + i)

theorem psum_first (n : ℕ) (h0 : n % 24 = 0) : psum g n = g n := by
  unfold psum
  rw [h0, Finset.sum_range_one]
  exact congrArg g (by omega)

theorem psum_succ (n : ℕ) (h0 : ¬(n + 1) % 24 = 0) : psum g (n + 1) = psum g n + g (n + 1) := by
  unfold psum
  rw [show (n + 1) % 24 + 1 = (n % 24 + 1) + 1 by omega, show (n + 1) / 24 = n / 24 by omega, Finset.sum_range_succ]
  exact congrArg (_ + g ·) (by omega)

theorem psum_last (p : ℕ) : psum g (24 * p + 23) = ∑ k : Fin 24, g (24 * p + k.val) := by
  unfold psum
  rw [show (24 * p + 23) % 24 + 1 = 24 by omega, show (24 * p + 23) / 24 = p by omega]
  exact Finset.sum_range fun i => g (24 * p + i)

variable (V : (c : Dev nD) → (b : Ref sig .tc) → Buf (Elt Ideal) ((c : Thread nD τ).loc b))

/-- A tile's contribution at any natural number (zero past the grid). -/
def tileN (c : Dev nD) (n : ℕ) : Num3 := if h : n < cfg0.N then tile V c ⟨n, h⟩ else 0

theorem tileN_eq (c : Dev nD) (n : ℕ) (hn : n < cfg0.N) : tileN V c n = tile V c ⟨n, hn⟩ := dif_pos hn

/-- Adding tile n + 1 to the partial sums up to n gives those up to n + 1. -/
theorem step (c : Dev nD) (n : ℕ) (hn : n + 1 < cfg0.N) (h0 : ¬(n + 1) % 24 = 0) (s : Acc3) (hs : val s = psum (tileN V c) n) :
    val (upd V c ⟨n + 1, hn⟩ s) = psum (tileN V c) (n + 1) := by
  rw [val_upd, hs, psum_succ _ n h0, tileN_eq V c _ hn]

/-- After point n the accumulators hold the partial sums of the tiles' contributions over n's half up to n. -/
theorem acc_inv (c : Dev nD) (n : ℕ) : ∀ hn : n < cfg0.N, val (R0.outsAt V c n hn).2.2.2 = psum (tileN V c) n := by
  induction n using Nat.strong_induction_on with | _ n ih =>
  intro hn
  by_cases h0 : n % 24 = 0
  · rw [R0.outsAt_A V c ⟨n, hn⟩ h0 (show ¬n % 24 = 23 by omega), accA, val_upd, val_zero, zero_add, psum_first _ n h0, tileN_eq V c n hn]
  · obtain ⟨m, rfl⟩ := Nat.exists_eq_succ_of_ne_zero (n := n) (by rintro rfl; exact h0 rfl)
    have e := step V c m hn h0 _ (ih m (Nat.lt_succ_self m) (Nat.lt_of_succ_lt hn))
    by_cases h1 : (m + 1) % 24 = 23
    · rw [R0.outsAt_C V c ⟨m + 1, hn⟩ h0 h1, accC]; exact e
    · rw [R0.outsAt_B V c ⟨m + 1, hn⟩ h0 h1, accB]; exact e

/-- The sums over the 24 tiles of half p. -/
def half (c : Dev nD) (p : Fin 2) : Num3 :=
  (fun j => ∑ k : Fin 24, ∑ f : Fin 4096, Dt V c j (Cert.Spec.col p k f) * Dt V c j (Cert.Spec.col p k f),
   fun b => ∑ k : Fin 24, ∑ f : Fin 4096, Nt V c b (Cert.Spec.col p k f) * Nt V c b (Cert.Spec.col p k f),
   fun b j => ∑ k : Fin 24, ∑ f : Fin 4096, Nt V c b (Cert.Spec.col p k f) * Dt V c j (Cert.Spec.col p k f))

theorem psum_half (c : Dev nD) (p : Fin 2) : psum (tileN V c) (24 * p.val + 23) = half V c p := by
  have hN : cfg0.N = 48 := N_0
  have hk : ∀ k : Fin 24, 24 * p.val + k.val < cfg0.N := fun k => by have := p.isLt; have := k.isLt; omega
  rw [psum_last, Finset.sum_congr rfl fun k _ => tileN_eq V c _ (hk k)]
  refine Prod.ext ?_ (Prod.ext ?_ ?_)
  · rw [Prod.fst_sum]; funext b; rw [Finset.sum_apply]; rfl
  · rw [Prod.snd_sum, Prod.fst_sum]; funext b; rw [Finset.sum_apply]; rfl
  · rw [Prod.snd_sum, Prod.snd_sum]; funext b j; rw [Finset.sum_apply, Finset.sum_apply]; rfl

theorem hp_of (t : Fin cfg0.N) : t.val / 24 < 2 := by have := t.isLt; have h : cfg0.N = 48 := N_0; omega

/-- The last point of half p. -/
def last (p : Fin 2) : Fin cfg0.N := ⟨24 * p.val + 23, by have := p.isLt; have h : cfg0.N = 48 := N_0; omega⟩
theorem last_mod (p : Fin 2) : (last p).val % 24 = 23 := by show (24 * p.val + 23) % 24 = 23; omega
theorem last_div (p : Fin 2) : (⟨(last p).val / 24, hp_of _⟩ : Fin 2) = p := Fin.ext (by show (24 * p.val + 23) / 24 = p.val; omega)

/-- At the last tile of a half the outputs hold the sums over the half. -/
theorem out_at (c : Dev nD) (t : Fin cfg0.N) (h1 : t.val % 24 = 23) :
    oval (R0.outsAt V c t.val t.isLt) = half V c ⟨t.val / 24, hp_of t⟩ := by
  refine Eq.trans ?_ ((congrArg (psum (tileN V c)) (by omega : t.val = 24 * (t.val / 24) + 23)).trans (psum_half V c ⟨t.val / 24, hp_of t⟩))
  obtain ⟨_ | n, hn⟩ := t
  · exact absurd h1 (by decide : ¬(0 : ℕ) % 24 = 23)
  · have h0 : ¬(n + 1) % 24 = 0 := fun h => by have : (n + 1) % 24 = 23 := h1; omega
    rw [R0.outsAt_C V c ⟨n + 1, hn⟩ h0 h1, oval_outC]
    exact step V c n hn h0 _ (acc_inv V c n _)

theorem idx3 : ∀ t : Fin cfg0.N, win0_3.index t 0 = t.val / 24 ∧ win0_3.index t 1 = 0 ∧ win0_3.index t 2 = 0 := by
  show ∀ t : Fin grid0.N, _
  decide +kernel

theorem emb3 (t : Fin cfg0.N) (b : Fin 64) (w : Fin 1) :
    ((cfg0.win 3).blk t).view.emb (ix3 0 b w) = ix3 ⟨t.val / 24, hp_of t⟩ b w := by
  funext a
  apply Fin.ext
  match a with
  | ⟨0, _⟩ => show win0_3.index t 0 * 1 + 1 * 0 = t.val / 24; rw [(idx3 t).1]; omega
  | ⟨1, _⟩ => show win0_3.index t 1 * 64 + 1 * b.val = b.val; rw [(idx3 t).2.1]; omega
  | ⟨2, _⟩ => show win0_3.index t 2 * 1 + 1 * w.val = w.val; rw [(idx3 t).2.2]; omega

def G3 (c : Dev nD) : Vec Ideal S2x64x1 .f32 := fun i => (half V c (i 0)).1 (i 1)

theorem flushed_eq3 (c : Dev nD) (t : Fin cfg0.N) (hf : (cfg0.win 3).flush t = true) :
    (R0.dat V c).flushed 3 t = ((cfg0.win 3).blk t).view.read (Elt Ideal) (G3 V c) := by
  funext y
  obtain ⟨u, b, w, rfl⟩ : ∃ u b w, y = ix3 u b w := ⟨y 0, y 1, y 2, eq_ix3 y⟩
  obtain rfl := Subsingleton.elim u 0
  obtain rfl := Subsingleton.elim w 0
  rw [View.read_apply, emb3 t]
  show (R0.dat V c).after 3 t _ = _
  rw [R0.after_3]
  exact congrFun (congrArg Prod.fst (out_at V c t ((flush0_3 t).mp hf))) b

theorem out3 (c : Dev nD) (p : Fin 2) (j : Fin 64) :
    (R0.dat V c).arrAt 3 cfg0.N (ix3 p j (0 : Fin 1))
      = ∑ k : Fin 24, ∑ f : Fin 4096, Dt V c j (Cert.Spec.col p k f) * Dt V c j (Cert.Spec.col p k f) := by
  have h := congrFun ((R0.dat V c).read_blk_arrAt 3 (G3 V c) (flushed_eq3 V c) (last p) ((flush0_3 _).mpr (last_mod p))) (ix3 0 j (0 : Fin 1))
  rwa [View.read_apply, View.read_apply, emb3, last_div] at h

theorem idx4 : ∀ t : Fin cfg0.N, win0_4.index t 0 = t.val / 24 ∧ win0_4.index t 1 = 0 ∧ win0_4.index t 2 = 0 := by
  show ∀ t : Fin grid0.N, _
  decide +kernel

theorem emb4 (t : Fin cfg0.N) (b : Fin 64) (w : Fin 1) :
    ((cfg0.win 4).blk t).view.emb (ix3 0 b w) = ix3 ⟨t.val / 24, hp_of t⟩ b w := by
  funext a
  apply Fin.ext
  match a with
  | ⟨0, _⟩ => show win0_4.index t 0 * 1 + 1 * 0 = t.val / 24; rw [(idx4 t).1]; omega
  | ⟨1, _⟩ => show win0_4.index t 1 * 64 + 1 * b.val = b.val; rw [(idx4 t).2.1]; omega
  | ⟨2, _⟩ => show win0_4.index t 2 * 1 + 1 * w.val = w.val; rw [(idx4 t).2.2]; omega

def G4 (c : Dev nD) : Vec Ideal S2x64x1 .f32 := fun i => (half V c (i 0)).2.1 (i 1)

theorem flushed_eq4 (c : Dev nD) (t : Fin cfg0.N) (hf : (cfg0.win 4).flush t = true) :
    (R0.dat V c).flushed 4 t = ((cfg0.win 4).blk t).view.read (Elt Ideal) (G4 V c) := by
  funext y
  obtain ⟨u, b, w, rfl⟩ : ∃ u b w, y = ix3 u b w := ⟨y 0, y 1, y 2, eq_ix3 y⟩
  obtain rfl := Subsingleton.elim u 0
  obtain rfl := Subsingleton.elim w 0
  rw [View.read_apply, emb4 t]
  show (R0.dat V c).after 4 t _ = _
  rw [R0.after_4]
  exact congrFun (congrArg (·.2.1) (out_at V c t ((flush0_4 t).mp hf))) b

theorem out4 (c : Dev nD) (p : Fin 2) (b : Fin 64) :
    (R0.dat V c).arrAt 4 cfg0.N (ix3 p b (0 : Fin 1))
      = ∑ k : Fin 24, ∑ f : Fin 4096, Nt V c b (Cert.Spec.col p k f) * Nt V c b (Cert.Spec.col p k f) := by
  have h := congrFun ((R0.dat V c).read_blk_arrAt 4 (G4 V c) (flushed_eq4 V c) (last p) ((flush0_4 _).mpr (last_mod p))) (ix3 0 b (0 : Fin 1))
  rwa [View.read_apply, View.read_apply, emb4, last_div] at h

theorem idx5 : ∀ t : Fin cfg0.N, win0_5.index t 0 = t.val / 24 ∧ win0_5.index t 1 = 0 ∧ win0_5.index t 2 = 0 := by
  show ∀ t : Fin grid0.N, _
  decide +kernel

theorem emb5 (t : Fin cfg0.N) (b : Fin 64) (w : Fin 64) :
    ((cfg0.win 5).blk t).view.emb (ix3 0 b w) = ix3 ⟨t.val / 24, hp_of t⟩ b w := by
  funext a
  apply Fin.ext
  match a with
  | ⟨0, _⟩ => show win0_5.index t 0 * 1 + 1 * 0 = t.val / 24; rw [(idx5 t).1]; omega
  | ⟨1, _⟩ => show win0_5.index t 1 * 64 + 1 * b.val = b.val; rw [(idx5 t).2.1]; omega
  | ⟨2, _⟩ => show win0_5.index t 2 * 64 + 1 * w.val = w.val; rw [(idx5 t).2.2]; omega

def G5 (c : Dev nD) : Vec Ideal S2x64x64 .f32 := fun i => (half V c (i 0)).2.2 (i 1) (i 2)

theorem flushed_eq5 (c : Dev nD) (t : Fin cfg0.N) (hf : (cfg0.win 5).flush t = true) :
    (R0.dat V c).flushed 5 t = ((cfg0.win 5).blk t).view.read (Elt Ideal) (G5 V c) := by
  funext y
  obtain ⟨u, b, w, rfl⟩ : ∃ u b w, y = ix3 u b w := ⟨y 0, y 1, y 2, eq_ix3 y⟩
  obtain rfl := Subsingleton.elim u 0
  rw [View.read_apply, emb5 t]
  show (R0.dat V c).after 5 t _ = _
  rw [R0.after_5]
  exact congrFun (congrFun (congrArg (·.2.2) (out_at V c t ((flush0_5 t).mp hf))) b) w

theorem out5 (c : Dev nD) (p : Fin 2) (b j : Fin 64) :
    (R0.dat V c).arrAt 5 cfg0.N (ix3 p b j)
      = ∑ k : Fin 24, ∑ f : Fin 4096, Nt V c b (Cert.Spec.col p k f) * Dt V c j (Cert.Spec.col p k f) := by
  have h := congrFun ((R0.dat V c).read_blk_arrAt 5 (G5 V c) (flushed_eq5 V c) (last p) ((flush0_5 _).mpr (last_mod p))) (ix3 0 b j)
  rwa [View.read_apply, View.read_apply, emb5, last_div] at h

end Cert.KernelIdeal.R0V

end
-- ==== Proof.KIdeal.R1ValA.lean ====
import proofs.«170924_j68367289418164_1_alg».proof.Proof.KIdeal.R1Data
import Idealize.ShloMosaic.Lib.Pipeline.Value
import Idealize.ShloMosaic.Lib.Tactic

set_option maxRecDepth 16384

noncomputable section

namespace Cert.KernelIdeal.R1V

open Cert.KernelIdeal Cert.KernelIdeal.Gen Cert.KernelIdeal.R1
open Idealize.ShloMosaic Idealize.ShloMosaic.TcCoe Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem load_whole {d : Fin 2 → ℕ} {e : EltTy} {m : Memref sig .tc .vmem ⟨2, d⟩ e} (h : m.IsWhole) (x : Vec F ⟨2, d⟩ e) (inb) :
    View.readAt (Elt F) m.view (Rect.unit ![0, 0] d inb).toLoadRect (h.unread x) = x := by
  rw [View.readAt_eq_ld, h.read_unread, View.ld_unit_zero (S := ⟨2, d⟩) hz2]

/-- The tile's total added to an accumulator `acc`. -/
abbrev accum (x0 x1 x2 x3 : Vec F S64x4096 .f32) (x4 : Vec F S64x1 .f32) (x5 : Vec F S64x64 .f32) (acc : Vec F S1x1 .f32) : Vec F S1x1 .f32 :=
  k1_pay1 (k1_pay6 x3) (k1_pay8 x0 x1 x4 x5) (k1_pay9 x3) (k1_pay10 x0 x1 x2 x3) acc

variable (c : Dev nD) (i : grid1.Coords) (arg2 arg3 arg4 arg5 : Memref sig .tc .vmem S64x4096 .f32)
  (arg6 : Memref sig .tc .vmem S64x1 .f32) (arg7 : Memref sig .tc .vmem S64x64 .f32)
  (arg8 : Memref sig .tc .vmem S1x1x1 .f32) (arg9 : Memref sig .tc .vmem S1x1 .f32)
  (harg2 : arg2.IsWhole) (harg3 : arg3.IsWhole) (harg4 : arg4.IsWhole) (harg5 : arg5.IsWhole)
  (harg6 : arg6.IsWhole) (harg7 : arg7.IsWhole) (harg8 : arg8.IsWhole) (harg9 : arg9.IsWhole)
  (x0 x1 x2 x3 : Vec F S64x4096 .f32) (x4 : Vec F S64x1 .f32) (x5 : Vec F S64x64 .f32) (xs0 : Vec F S1x1 .f32)

/-- Reset, then accumulate: the accumulator is the tile's total added to the stored zero. -/
theorem sout_A (hc0 : cond1_0 i) (hc1 : ¬cond1_1 i) :
    sout1_A_0 c i arg2 harg2 arg3 harg3 arg4 harg4 arg5 harg5 arg6 harg6 arg7 harg7 arg8 harg8 arg9 harg9 hc0 hc1 x0 x1 x2 x3 x4 x5
      = accum x0 x1 x2 x3 x4 x5 (k1_pay3 (F := F)) := by
  unfold sout1_A_0
  rw [View.read_writes_eq_canon _ _ _ fun _ => scover1_A_0 ..]
  unfold kernelRun1_A
  dsimp only
  sl_unfold_words
  rw [View.canon_cons_unit_zero (S := S1x1) hz2]
  simp only [load_whole, View.readCov_unit_zero (S := S1x1) _ hz2]

/-- Accumulate only: the tile's total is added to what the accumulator held. -/
theorem sout_B (hc0 : ¬cond1_0 i) (hc1 : ¬cond1_1 i) :
    sout1_B_0 c i arg2 harg2 arg3 harg3 arg4 harg4 arg5 harg5 arg6 harg6 arg7 harg7 arg8 harg8 arg9 harg9 hc0 hc1 x0 x1 x2 x3 x4 x5 xs0
      = accum x0 x1 x2 x3 x4 x5 xs0 := by
  unfold sout1_B_0
  rw [View.read_writes_eq_canon _ _ _ fun _ => scover1_B_0 ..]
  unfold kernelRun1_B
  dsimp only
  sl_unfold_words
  rw [View.canon_unit_zero hz2]
  simp only [load_whole]

/-- Accumulate and store: the accumulator as above, -/
theorem sout_C (hc0 : ¬cond1_0 i) (hc1 : cond1_1 i) :
    sout1_C_0 c i arg2 harg2 arg3 harg3 arg4 harg4 arg5 harg5 arg6 harg6 arg7 harg7 arg8 harg8 arg9 harg9 hc0 hc1 x0 x1 x2 x3 x4 x5 xs0
      = accum x0 x1 x2 x3 x4 x5 xs0 := by
  unfold sout1_C_0
  rw [View.read_writes_eq_canon _ _ _ fun _ => scover1_C_0 ..]
  unfold kernelRun1_C
  dsimp only
  sl_unfold_words
  rw [View.canon_unit_zero hz2]
  simp only [load_whole]

/-- and the output block is that new accumulator, reshaped to (1,1,1). -/
theorem out_C (hc0 : ¬cond1_0 i) (hc1 : cond1_1 i) :
    out1_C_6 c i arg2 harg2 arg3 harg3 arg4 harg4 arg5 harg5 arg6 harg6 arg7 harg7 arg8 harg8 arg9 harg9 hc0 hc1 x0 x1 x2 x3 x4 x5 xs0
      = k1_pay2 (accum x0 x1 x2 x3 x4 x5 xs0) := by
  unfold out1_C_6
  rw [View.read_writes_eq_canon _ _ _ fun _ => cover1_C_6 ..]
  unfold kernelRun1_C
  dsimp only
  sl_unfold_words
  rw [View.canon_unit_zero hz3]
  simp only [load_whole, View.readCov_unit_zero (S := S1x1) _ hz2]

end Cert.KernelIdeal.R1V

end
-- ==== Proof.LibMatmulPlain.lean ====
import Idealize.ShloMosaic.Lib.ValueIdx
import Idealize.ShloMosaic.PureOps.Ideal.Laws

noncomputable section

namespace Cert.LibMatmulPlain

open Idealize.ShloMosaic Idealize.ShloMosaic.ValueIdx

variable {M K N : Nat}

abbrev plainDims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

variable (wf : DotDims.WF (⟨2, ![M, K]⟩ : Shape) ⟨2, ![K, N]⟩ ⟨2, ![M, N]⟩ [1] [0] [0] [1] [] [])

theorem lhs_axis0 (j : (⟨2, ![M, N]⟩ : Shape).Idx) (q : (plainDims wf).contr.Idx) :
    ((plainDims wf).lhsIdx j q 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl
theorem lhs_axis1 (j : (⟨2, ![M, N]⟩ : Shape).Idx) (q : (plainDims wf).contr.Idx) :
    ((plainDims wf).lhsIdx j q 1).val = (q ⟨0, Nat.one_pos⟩).val :=
  (plainDims wf).lhsIdx_val_of_single rfl j q
theorem rhs_axis0 (j : (⟨2, ![M, N]⟩ : Shape).Idx) (q : (plainDims wf).contr.Idx) :
    ((plainDims wf).rhsIdx j q 0).val = (q ⟨0, Nat.one_pos⟩).val :=
  (plainDims wf).rhsIdx_val_of_single rfl j q
theorem rhs_axis1 (j : (⟨2, ![M, N]⟩ : Shape).Idx) (q : (plainDims wf).contr.Idx) :
    ((plainDims wf).rhsIdx j q 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- A product into the zero accumulator at (p, q): the sum over k of left (p, k) · right (k, q). -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (plainDims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact lhs_axis0 wf _ _
    | ⟨1, _⟩ => exact (lhs_axis1 wf _ _).trans hk)
  have er : (plainDims wf).rhsIdx (ix2 p q) ((contrEquiv1 (plainDims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibMatmulPlain

end
-- ==== Proof.KIdeal.R1ValB.lean ====
import proofs.«170924_j68367289418164_1_alg».proof.Proof.KIdeal.R1ValA
import proofs.«170924_j68367289418164_1_alg».proof.Proof.Spec
import proofs.«170924_j68367289418164_1_alg».proof.Proof.LibKeepdims
import proofs.«170924_j68367289418164_1_alg».proof.Proof.LibMatmulPlain

set_option maxRecDepth 16384

noncomputable section

namespace Cert.KernelIdeal.R1V

open Cert.KernelIdeal Cert.KernelIdeal.Gen Cert.KernelIdeal.R1
open Idealize.ShloMosaic Idealize.ShloMosaic.TcCoe Idealize.ShloMosaic.ValueIdx

/-- One loss entry from its six scalars: data, noise, predicted mean, predicted log-variance, time and the mixed value. -/
def entry (d z pm lv t mx : EReal) : EReal :=
  let e := Ideal.exp lv
  let f := d - z
  let u := Ideal.div (mx - (z + t * (d - z))) (Ideal.ofBits .f32 0x3F800000#32 - t + Ideal.ofBits .f32 0x322BCC77#32)
  e * (Ideal.div ((pm - f) * (pm - f)) (Ideal.ofBits .f32 0x40000000#32 * e)
        + Ideal.ofBits .f32 0x3F000000#32 * lv
        + Ideal.div (u * u - f * f) (Ideal.ofBits .f32 0x40000000#32 * e))

theorem lossG_eq_entry (D Z P V : Fin 64 → Fin 196608 → EReal) (T : Fin 64 → EReal) (Wm : Fin 64 → Fin 64 → EReal)
    (b : Fin 64) (d : Fin 196608) :
    Cert.Spec.lossG D Z P V T Wm b d = entry (D b d) (Z b d) (P b d) (V b d) (T b) (∑ j : Fin 64, Wm b j * D j d) := rfl

/-- The loss entry of a tile at row `b`, column `f`, from the six blocks. -/
def tileEntry (x0 x1 x2 x3 : FVec Ideal S64x4096 .f32) (x4 : FVec Ideal S64x1 .f32) (x5 : FVec Ideal S64x64 .f32)
    (b : Fin 64) (f : Fin 4096) : EReal :=
  entry (x0 (ix2 b f)) (x1 (ix2 b f)) (x2 (ix2 b f)) (x3 (ix2 b f)) (x4 (ix2 b (0 : Fin 1))) (∑ j : Fin 64, x5 (ix2 b j) * x0 (ix2 j f))

theorem ix2_eq {n0 n1 : ℕ} {j : (⟨2, ![n0, n1]⟩ : Shape).Idx} {a : Fin n0} {b : Fin n1}
    (h0 : (j 0).val = a.val) (h1 : (j 1).val = b.val) : j = ix2 a b :=
  (eq_ix2 j).trans (congrArg₂ ix2 (Fin.ext h0) (Fin.ext h1))

theorem rowsum_apply (X : FVec Ideal S64x4096 .f32) (h : S64x4096.Reduces [1] S64) (hφ : FKind.Formats .f32)
    (hacc : (0x00000000#32 : BitVec 32) = 0x00000000#32) (b : Fin 64) :
    multiReduction .add [1] S64 X 0x00000000#32 h hφ hacc (ix1 b) = ∑ f : Fin 4096, X (ix2 b f) :=
  (Ideal.multiReduction_add_single X 0x00000000#32 h hφ hacc (ix1 b)).trans
    (Finset.sum_congr rfl fun f _ => congrArg X (ix2_eq rfl rfl))

theorem colsum_apply (Y : FVec Ideal S64x1 .f32) (h : S64x1.Reduces [0] S1) (hφ : FKind.Formats .f32)
    (hacc : (0x00000000#32 : BitVec 32) = 0x00000000#32) :
    multiReduction .add [0] S1 Y 0x00000000#32 h hφ hacc (ix1 (0 : Fin 1)) = ∑ b : Fin 64, Y (ix2 b (0 : Fin 1)) :=
  (Ideal.multiReduction_add_single Y 0x00000000#32 h hφ hacc (ix1 (0 : Fin 1))).trans
    (Finset.sum_congr rfl fun b _ => congrArg Y (ix2_eq rfl rfl))

theorem mix_apply (w : FVec Ideal S64x64 .bf16) (d : FVec Ideal S64x4096 .bf16) (b : Fin 64) (f : Fin 4096) :
    matmul dot_S64x64_S64x4096_S64x4096_1_0_0_1_n_n none w d (constant S64x4096 .f32 0x00000000#32) (ix2 b f)
      = ∑ j : Fin 64, w (ix2 b j) * d (ix2 j f) :=
  Cert.LibMatmulPlain.matmul_zero_plain_apply (M := 64) (K := 64) (N := 4096) dot_S64x64_S64x4096_S64x4096_1_0_0_1_n_n_wf none w d b f

/-- The body's arithmetic is the loss entry pointwise, summed along each row and then down the rows. -/
theorem accum_apply (x0 x1 x2 x3 : FVec Ideal S64x4096 .f32) (x4 : FVec Ideal S64x1 .f32) (x5 : FVec Ideal S64x64 .f32)
    (acc : FVec Ideal S1x1 .f32) :
    accum (F := Ideal) x0 x1 x2 x3 x4 x5 acc (ix2 (0 : Fin 1) (0 : Fin 1))
      = acc (ix2 (0 : Fin 1) (0 : Fin 1)) + ∑ b : Fin 64, ∑ f : Fin 4096, tileEntry x0 x1 x2 x3 x4 x5 b f := by
  unfold accum k1_pay1
  simp only [shapeCast_self, addf_apply, Cert.LibKeepdims.shapeCast_a_a1_apply]
  refine congrArg (fun z => acc (ix2 (0 : Fin 1) (0 : Fin 1)) + z) ?_
  refine (colsum_apply _ _ _ _).trans (Finset.sum_congr rfl fun b _ => ?_)
  refine (Cert.LibKeepdims.shapeCast_a_a1_apply _ _ b (0 : Fin 1)).trans ?_
  refine (rowsum_apply _ _ _ _ b).trans (Finset.sum_congr rfl fun f _ => ?_)
  unfold k1_pay10 k1_pay9 k1_pay8 k1_pay7 k1_pay6 k1_pay5 k1_pay4
  simp only [divf_apply, mulf_apply, subf_apply, addf_apply, broadcast_apply, shapeCast_self, mix_apply, truncf_apply,
    Cert.LibKeepdims.broadcastTo_a1_ab_apply]
  rfl

theorem pay3_apply : k1_pay3 (F := Ideal) (ix2 (0 : Fin 1) (0 : Fin 1)) = 0 := by
  unfold k1_pay3
  rw [shapeCast_self]
  exact Ideal.ofBits_zero_f32

theorem pay2_apply (v : FVec Ideal S1x1 .f32) : k1_pay2 (F := Ideal) v (ix3 (0 : Fin 1) (0 : Fin 1) (0 : Fin 1)) = v (ix2 (0 : Fin 1) (0 : Fin 1)) :=
  shapeCast_apply v _ _ _ (by rw [Shape.rowMajor_val_two, Shape.rowMajor_val_three]; rfl)

end Cert.KernelIdeal.R1V

end
-- ==== Proof.KIdeal.R1ValC.lean ====
import proofs.«170924_j68367289418164_1_alg».proof.Proof.KIdeal.R1ValB

set_option maxRecDepth 16384

noncomputable section

namespace Cert.KernelIdeal.R1V

open Cert.KernelIdeal Cert.KernelIdeal.Gen Cert.KernelIdeal.R1
open Idealize.ShloMosaic Idealize.ShloMosaic.TcCoe Idealize.ShloMosaic.ValueIdx

variable (V : (c : Dev nD) → (b : Ref sig .tc) → Buf (Elt Ideal) ((c : Thread nD τ).loc b))

def Dt (c : Dev nD) (b : Fin 64) (d : Fin 196608) : EReal := V c main_v0 (ix2 b d)
def Zt (c : Dev nD) (b : Fin 64) (d : Fin 196608) : EReal := V c main_v1 (ix2 b d)
def Pt (c : Dev nD) (b : Fin 64) (d : Fin 196608) : EReal := V c main_v2 (ix2 b d)
def Lt (c : Dev nD) (b : Fin 64) (d : Fin 196608) : EReal := V c main_v3 (ix2 b d)
def Tt (c : Dev nD) (b : Fin 64) : EReal := V c main_v6 (ix2 b (0 : Fin 1))
def Wt (c : Dev nD) (b j : Fin 64) : EReal := V c main_v43 (ix2 b j)

theorem idx1_0 : ∀ t : Fin grid1.N, win1_0.index t 0 = 0 ∧ win1_0.index t 1 = t.val := by decide +kernel
theorem idx1_4 : ∀ t : Fin grid1.N, win1_4.index t 0 = 0 ∧ win1_4.index t 1 = 0 := by decide +kernel
theorem idx1_6 : ∀ t : Fin grid1.N, win1_6.index t 0 = t.val / 24 ∧ win1_6.index t 1 = 0 ∧ win1_6.index t 2 = 0 := by decide +kernel

/-- Column f of the tile at point t is column 4096 t + f of the table; the four tables are cut the same way. -/
theorem emb_tile (t : Fin cfg1.N) (b : Fin 64) (f : Fin 4096) (d : Fin 196608) (hd : d.val = t.val * 4096 + f.val) :
    (win1_0.rect t).emb (ix2 b f) = ix2 b d := by
  have hi := idx1_0 t
  refine ix2_eq ?_ ?_
  · show win1_0.index t 0 * 64 + 1 * b.val = b.val; omega
  · show win1_0.index t 1 * 4096 + 1 * f.val = d.val; omega

section
variable (c : Dev nD) (t : Fin cfg1.N) (b : Fin 64)

theorem blkD_apply (f : Fin 4096) (d : Fin 196608) (hd : d.val = t.val * 4096 + f.val) :
    (iblk V c 0 t : FVec Ideal S64x4096 .f32) (ix2 b f) = Dt V c b d := congrArg (V c main_v0) (emb_tile t b f d hd)
theorem blkZ_apply (f : Fin 4096) (d : Fin 196608) (hd : d.val = t.val * 4096 + f.val) :
    (iblk V c 1 t : FVec Ideal S64x4096 .f32) (ix2 b f) = Zt V c b d := congrArg (V c main_v1) (emb_tile t b f d hd)
theorem blkP_apply (f : Fin 4096) (d : Fin 196608) (hd : d.val = t.val * 4096 + f.val) :
    (iblk V c 2 t : FVec Ideal S64x4096 .f32) (ix2 b f) = Pt V c b d := congrArg (V c main_v2) (emb_tile t b f d hd)
theorem blkL_apply (f : Fin 4096) (d : Fin 196608) (hd : d.val = t.val * 4096 + f.val) :
    (iblk V c 3 t : FVec Ideal S64x4096 .f32) (ix2 b f) = Lt V c b d := congrArg (V c main_v3) (emb_tile t b f d hd)

theorem blkT_apply : (iblk V c 4 t : FVec Ideal S64x1 .f32) (ix2 b (0 : Fin 1)) = Tt V c b := by
  have hi := idx1_4 t
  unfold iblk Tt
  show V c main_v6 _ = V c main_v6 _
  refine congrArg _ (ix2_eq ?_ ?_)
  · show win1_4.index t 0 * 64 + 1 * b.val = b.val; omega
  · show win1_4.index t 1 * 1 + 1 * 0 = 0; omega

theorem blkW_apply (j : Fin 64) : (iblk V c 5 t : FVec Ideal S64x64 .f32) (ix2 b j) = Wt V c b j := by
  have hi := idx1_4 t
  unfold iblk Wt
  show V c main_v43 _ = V c main_v43 _
  refine congrArg _ (ix2_eq ?_ ?_)
  · show win1_4.index t 0 * 64 + 1 * b.val = b.val; omega
  · show win1_4.index t 1 * 64 + 1 * j.val = j.val; omega

end

/-- The sum of the loss entries of the tile read at point `t`. -/
def tileSumAt (c : Dev nD) (t : Fin cfg1.N) : EReal :=
  ∑ b : Fin 64, ∑ f : Fin 4096, tileEntry (iblk V c 0 t) (iblk V c 1 t) (iblk V c 2 t) (iblk V c 3 t) (iblk V c 4 t) (iblk V c 5 t) b f

/-- The sum of the specification's loss over tile `k` of half `p`. -/
def tileTotal (c : Dev nD) (p : Fin 2) (k : Fin 24) : EReal :=
  ∑ b : Fin 64, ∑ f : Fin 4096, Cert.Spec.lossG (Dt V c) (Zt V c) (Pt V c) (Lt V c) (Tt V c) (Wt V c) b (Cert.Spec.col p k f)

theorem tile_sum (c : Dev nD) (t : Fin cfg1.N) (p : Fin 2) (k : Fin 24) (ht : t.val = 24 * p.val + k.val) :
    tileSumAt V c t = tileTotal V c p k := by
  unfold tileSumAt tileTotal
  refine Finset.sum_congr rfl fun b _ => Finset.sum_congr rfl fun f _ => ?_
  have hd : (Cert.Spec.col p k f).val = t.val * 4096 + f.val := by rw [ht]; rfl
  rw [lossG_eq_entry]
  unfold tileEntry
  rw [blkD_apply V c t b f _ hd, blkZ_apply V c t b f _ hd, blkP_apply V c t b f _ hd, blkL_apply V c t b f _ hd, blkT_apply V c t b]
  refine congrArg _ (Finset.sum_congr rfl fun j _ => ?_)
  rw [blkW_apply V c t b j, blkD_apply V c t j f _ hd]

/-- Each point adds its tile's total to the accumulator, which the first point of a half first resets to zero. -/
theorem acc_step (c : Dev nD) (t : Fin cfg1.N) :
    (outsAt V c t.val t.isLt).2 (ix2 (0 : Fin 1) (0 : Fin 1))
      = (if t.val % 24 = 0 then 0 else (outsAt V c (t.val - 1) (Nat.lt_of_le_of_lt (Nat.sub_le _ _) t.isLt)).2 (ix2 (0 : Fin 1) (0 : Fin 1)))
        + tileSumAt V c t := by
  by_cases h0 : t.val % 24 = 0
  · rw [if_pos h0, outsAt_A V c t h0 (by omega)]
    dsimp only
    rw [sout_A, accum_apply, pay3_apply]
    rfl
  · rw [if_neg h0]
    by_cases h1 : t.val % 24 = 23
    · rw [outsAt_C V c t h0 h1]
      dsimp only
      rw [sout_C, accum_apply]
      rfl
    · rw [outsAt_B V c t h0 h1]
      dsimp only
      rw [sout_B, accum_apply]
      rfl

/-- At the last point of a half the output block is the new accumulator. -/
theorem outC_val (c : Dev nD) (t : Fin cfg1.N) (h0 : ¬t.val % 24 = 0) (h1 : t.val % 24 = 23) :
    (outsAt V c t.val t.isLt).1 (ix3 (0 : Fin 1) (0 : Fin 1) (0 : Fin 1)) = (outsAt V c t.val t.isLt).2 (ix2 (0 : Fin 1) (0 : Fin 1)) := by
  rw [outsAt_C V c t h0 h1]
  dsimp only
  rw [out_C, pay2_apply, sout_C]

/-- After point 24 p + k the accumulator holds the totals of tiles 0 … k of half p. -/
theorem acc_eq (c : Dev nD) (p : Fin 2) (k : ℕ) (hk : k < 24) (h : 24 * p.val + k < cfg1.N) :
    (outsAt V c (24 * p.val + k) h).2 (ix2 (0 : Fin 1) (0 : Fin 1)) = ∑ j : Fin (k + 1), tileTotal V c p ⟨j.val, Nat.lt_of_lt_of_le j.isLt hk⟩ := by
  induction k with
  | zero =>
    refine (acc_step V c ⟨_, h⟩).trans ?_
    rw [if_pos (show (24 * p.val + 0) % 24 = 0 by omega), tile_sum V c ⟨_, h⟩ p ⟨0, hk⟩ rfl, Fin.sum_univ_castSucc, Fin.sum_univ_zero]
    rfl
  | succ k ih =>
    refine (acc_step V c ⟨_, h⟩).trans ?_
    rw [if_neg (show ¬(24 * p.val + (k + 1)) % 24 = 0 by omega), tile_sum V c ⟨_, h⟩ p ⟨k + 1, hk⟩ rfl, Fin.sum_univ_castSucc]
    exact congrArg (· + _) (ih (by omega) (by omega))

theorem half_sum (c : Dev nD) (t : Fin cfg1.N) (p : Fin 2) (ht : t.val = 24 * p.val + 23) :
    (outsAt V c t.val t.isLt).2 (ix2 (0 : Fin 1) (0 : Fin 1)) = ∑ k : Fin 24, tileTotal V c p k := by
  obtain ⟨n, hn⟩ := t
  dsimp only at ht
  subst ht
  exact acc_eq V c p 23 (by omega) hn

/-- What the output array ends holding: at (p,0,0) the total of half p. -/
def Gout (c : Dev nD) : FVec Ideal S2x1x1 .f32 :=
  fun i => ∑ k : Fin 24, tileTotal V c ⟨(i 0).val, (i 0).isLt⟩ k

theorem Gout_apply (c : Dev nD) (i : S2x1x1.Idx) (p : Fin 2) (h : (i 0).val = p.val) :
    Gout V c i = ∑ k : Fin 24, tileTotal V c p k := by
  unfold Gout
  rw [show (⟨(i 0).val, (i 0).isLt⟩ : Fin 2) = p from Fin.ext h]

theorem flushed_eq (c : Dev nD) (t : Fin cfg1.N) (hf : (cfg1.win 6).flush t = true) :
    (dat V c).flushed 6 t = ((cfg1.win 6).blk t).view.read (Elt Ideal) (Gout V c) := by
  have hN : cfg1.N = 48 := N_1
  have hlt : t.val < 48 := lt_of_lt_of_eq t.isLt hN
  have h23 : t.val % 24 = 23 := (flush1_6 t).mp hf
  have hi := idx1_6 t
  show (cfg1.win 6).cut (grid1.coords t) ((dat V c).after 6 t) = _
  rw [after_6]
  funext y
  have hy : y = ix3 (0 : Fin 1) (0 : Fin 1) (0 : Fin 1) :=
    (eq_ix3 y).trans (by rw [Fin.fin_one_eq_zero (y 0), Fin.fin_one_eq_zero (y 1), Fin.fin_one_eq_zero (y 2)]; rfl)
  show (outsAt V c t.val t.isLt).1 y = Gout V c (((cfg1.win 6).blk t).view.emb y)
  rw [hy, outC_val V c t (by omega) h23, half_sum V c t ⟨t.val / 24, by omega⟩ (by dsimp only; omega)]
  refine (Gout_apply V c _ _ ?_).symm
  show win1_6.index t 0 * 1 + 1 * 0 = t.val / 24
  omega

theorem cover_o (i : S2x1x1.Idx) :
    ∃ t : Fin cfg1.N, (cfg1.win 6).flush t = true ∧ i ∈ ((cfg1.win 6).blk t).view.set := by
  have hN : cfg1.N = 48 := N_1
  have h0 : (i 0).val < 2 := (i 0).isLt
  have h1 : (i 1).val < 1 := (i 1).isLt
  have h2 : (i 2).val < 1 := (i 2).isLt
  obtain ⟨t, ht⟩ : ∃ t : Fin cfg1.N, t.val = 24 * (i 0).val + 23 := ⟨⟨24 * (i 0).val + 23, by omega⟩, rfl⟩
  have hi := idx1_6 t
  refine ⟨t, (flush1_6 t).mpr (by omega), ?_⟩
  show i ∈ ((View.whole main_v44).slice (win1_6.rect t)).set
  rw [View.set_slice_whole, Rect.mem_set_unit]
  intro a
  match a with
  | ⟨0, _⟩ => show win1_6.index t 0 * 1 ≤ (i 0).val ∧ (i 0).val < win1_6.index t 0 * 1 + 1; omega
  | ⟨1, _⟩ => show win1_6.index t 1 * 1 ≤ (i 1).val ∧ (i 1).val < win1_6.index t 1 * 1 + 1; omega
  | ⟨2, _⟩ => show win1_6.index t 2 * 1 ≤ (i 2).val ∧ (i 2).val < win1_6.index t 2 * 1 + 1; omega

theorem final_o (c : Dev nD) : (dat V c).arrAt 6 cfg1.N = Gout V c :=
  (dat V c).arrAt_eq_of_cover 6 (Gout V c) (flushed_eq V c) cover_o

/-- Entry (p,0,0) of the output array is the loss summed over the 24 tiles of half p. -/
theorem out6 (c : Dev nD) (p : Fin 2) : (R1.dat V c).arrAt 6 cfg1.N (ix3 p (0 : Fin 1) (0 : Fin 1))
    = ∑ k : Fin 24, ∑ b : Fin 64, ∑ f : Fin 4096,
        Cert.Spec.lossG (Dt V c) (Zt V c) (Pt V c) (Lt V c) (Tt V c) (Wt V c) b (Cert.Spec.col p k f) := by
  rw [final_o V c]
  exact Gout_apply V c (ix3 p (0 : Fin 1) (0 : Fin 1)) p rfl

end Cert.KernelIdeal.R1V

end
-- ==== Proof.KIdeal.R1Val.lean ====
import proofs.«170924_j68367289418164_1_alg».proof.Proof.KIdeal.R1ValC
-- ==== Proof.LibSumBlocks.lean ====
import Mathlib.Algebra.BigOperators.Fin
import Mathlib.Algebra.BigOperators.Group.Finset.Sigma
import Mathlib.Logic.Equiv.Fin.Basic

namespace Cert.LibSumBlocks

variable {M : Type*} [AddCommMonoid M]

/-- A sum over `a * b` indices is the sum over `a` blocks of `b`. -/
theorem sum_blocks {a b n : ℕ} (hn : a * b = n) (f : Fin n → M) (g : Fin a → Fin b → Fin n)
    (hg : ∀ j k, (g j k).val = b * j.val + k.val) :
    ∑ k, f k = ∑ j, ∑ k', f (g j k') := by
  subst hn
  rw [← Fintype.sum_prod_type']
  refine (Fintype.sum_equiv finProdFinEquiv _ _ fun x => ?_).symm
  refine congrArg f (Fin.ext ?_)
  rw [hg, finProdFinEquiv_apply_val, Nat.add_comm]

end Cert.LibSumBlocks
-- ==== Proof.KIdeal.BridgeB.lean ====
import proofs.«170924_j68367289418164_1_alg».proof.Proof.KIdeal.BridgeA
import proofs.«170924_j68367289418164_1_alg».proof.Proof.KIdeal.R0Val
import proofs.«170924_j68367289418164_1_alg».proof.Proof.KIdeal.R1Val
import proofs.«170924_j68367289418164_1_alg».proof.Proof.LibSumBlocks

noncomputable section

namespace Cert.KernelIdeal.Bridge

open Idealize.ShloMosaic Idealize.ShloMosaic.ValueIdx Idealize.ShloMosaic.TcCoe Idealize.SL.Sem
open Cert.KernelIdeal Cert.KernelIdeal.Gen Cert.KernelIdeal.Run
open Cert.Spec (tab tvec tq wts noised noisedG mixG lossG d2 n2 cross tcolA n2colA d2rowA crossA W mix loss result resultOf col)

/-- A sum over the features is the sum over halves, tiles and a tile's features. -/
theorem sum_tiles {M : Type*} [AddCommMonoid M] (g : Fin 196608 → M) :
    ∑ d, g d = ∑ p : Fin 2, ∑ k : Fin 24, ∑ f : Fin 4096, g (col p k f) := by
  rw [Cert.LibSumBlocks.sum_blocks (a := 48) (b := 4096) (by norm_num) g
    (fun t f => ⟨4096 * t.val + f.val, by have := t.isLt; have := f.isLt; omega⟩) (fun _ _ => rfl)]
  rw [Cert.LibSumBlocks.sum_blocks (a := 2) (b := 24) (by norm_num)
    (fun t : Fin 48 => ∑ f : Fin 4096, g ⟨4096 * t.val + f.val, by have := t.isLt; have := f.isLt; omega⟩)
    (fun p k => ⟨24 * p.val + k.val, by have := p.isLt; have := k.isLt; omega⟩) (fun _ _ => rfl)]
  refine Finset.sum_congr rfl fun p _ => Finset.sum_congr rfl fun k _ => Finset.sum_congr rfl fun f _ => congrArg g (Fin.ext ?_)
  show 4096 * (24 * p.val + k.val) + f.val = (24 * p.val + k.val) * 4096 + f.val
  rw [Nat.mul_comm]

/-- A sum over the leading axis of two, at (b, j). -/
theorem red_lead {n : ℕ} (x : FVec Ideal ⟨3, ![2, 64, n]⟩ .f32) (h' : (⟨3, ![2, 64, n]⟩ : Shape).ReducesTo [0] ⟨2, ![64, n]⟩)
    (h : (⟨3, ![2, 64, n]⟩ : Shape).Reduces [0] ⟨2, ![64, n]⟩) (b : Fin 64) (j : Fin n) :
    Host.reduceAdd x (constant (F := Ideal) S_ .f32 0x00000000#32) h' h_S_ (ix2 b j) = ∑ p : Fin 2, x (ix3 p b j) := by
  simp only [Host.reduceAdd, Ideal.hostReduceAdd_def]
  rw [Ideal.hostReduceAdd_single h' h]
  refine (congrArg (· + _) (show constant (F := Ideal) S_ .f32 0x00000000#32 (Shape.Idx.first h_S_) = 0 from Ideal.ofBits_zero_f32)).trans ?_
  rw [zero_add]
  refine Finset.sum_congr rfl fun k _ => congrArg x (funext fun a => Fin.ext (by match a with | ⟨0, _⟩ => rfl | ⟨1, _⟩ => rfl | ⟨2, _⟩ => rfl))

variable (m : (ℓ : Loc nD τ sig) → Buf (Elt Ideal) ℓ) (c : Dev nD)

theorem Dt0 : R0V.Dt (E0 m) c = tab (a0 m c) := funext fun b => funext fun d => E0_data m c b d
theorem Zt0 : R0V.Zt (E0 m) c = tab (a1 m c) := funext fun b => funext fun d => E0_noise m c b d
theorem Tt0 : R0V.Tt (E0 m) c = tq (tvec (a2 m c)) := funext fun b => E0_time m c b
theorem Nt0 : R0V.Nt (E0 m) c = noised (tab (a0 m c)) (tab (a1 m c)) (tvec (a2 m c)) := by
  unfold R0V.Nt; rw [Dt0, Zt0, Tt0]; rfl

theorem n2K_eq : n2K m c = n2colA (tab (a0 m c)) (tab (a1 m c)) (tvec (a2 m c)) := by
  funext i
  obtain ⟨b, u, rfl⟩ : ∃ (b : Fin 64) (u : Fin 1), i = ix2 b u := ⟨i 0, i 1, eq_ix2 i⟩
  obtain rfl : u = 0 := Subsingleton.elim _ _
  unfold n2K n2colA n2
  rw [red_lead (n := 1) _ _ (by decide), sum_tiles]
  refine Finset.sum_congr rfl fun p _ => ?_
  rw [F0_out1, R0V.out4 (E0 m) c p b, Nt0]

theorem d2K_eq (j : Fin 64) : d2K m c (ix2 j (0 : Fin 1)) = d2 (tab (a0 m c)) j := by
  unfold d2K d2
  rw [red_lead (n := 1) _ _ (by decide), sum_tiles]
  refine Finset.sum_congr rfl fun p _ => ?_
  rw [F0_out0, R0V.out3 (E0 m) c p j, Dt0]

theorem d2row_eq : shapeCast S1x64 (d2K m c) shapeCasts_S64x1_S1x64 = d2rowA (tab (a0 m c)) := by
  funext i
  obtain ⟨u, j, rfl⟩ : ∃ (u : Fin 1) (j : Fin 64), i = ix2 u j := ⟨i 0, i 1, eq_ix2 i⟩
  obtain rfl : u = 0 := Subsingleton.elim _ _
  refine (shapeCast_apply (d2K m c) shapeCasts_S64x1_S1x64 (ix2 (0 : Fin 1) j) (ix2 j (0 : Fin 1)) (by
    rw [Shape.rowMajor_val_two, Shape.rowMajor_val_two]
    show j.val * 1 + 0 = 0 * 64 + j.val
    omega)).trans ?_
  rw [d2K_eq]
  rfl

theorem crK_eq : crK m c = crossA (tab (a0 m c)) (tab (a1 m c)) (tvec (a2 m c)) := by
  funext i
  obtain ⟨b, j, rfl⟩ : ∃ (b : Fin 64) (j : Fin 64), i = ix2 b j := ⟨i 0, i 1, eq_ix2 i⟩
  unfold crK crossA cross
  rw [red_lead (n := 64) _ _ (by decide), sum_tiles]
  refine Finset.sum_congr rfl fun p _ => ?_
  rw [F0_out2, R0V.out5 (E0 m) c p b j, Nt0, Dt0]

theorem tcol_eq : F0 m c main_v6 = tcolA (tvec (a2 m c)) := by
  funext i
  obtain ⟨b, u, rfl⟩ : ∃ (b : Fin 64) (u : Fin 1), i = ix2 b u := ⟨i 0, i 1, eq_ix2 i⟩
  obtain rfl : u = 0 := Subsingleton.elim _ _
  rw [F0_v6, E0_time]
  rfl

theorem E1_W (b j : Fin 64) : E1 m c main_v43 (ix2 b j) = W (tab (a0 m c)) (tab (a1 m c)) (tvec (a2 m c)) b j := by
  rw [E1_weights, tcol_eq, n2K_eq, d2row_eq, crK_eq]
  rfl

theorem Dt1 : R1V.Dt (E1 m) c = tab (a0 m c) := funext fun b => funext fun d => E1_data m c b d
theorem Zt1 : R1V.Zt (E1 m) c = tab (a1 m c) := funext fun b => funext fun d => E1_noise m c b d
theorem Pt1 : R1V.Pt (E1 m) c = tab (a3 m c) := funext fun b => funext fun d => E1_pmean m c b d
theorem Lt1 : R1V.Lt (E1 m) c = tab (a4 m c) := funext fun b => funext fun d => E1_plogv m c b d
theorem Tt1 : R1V.Tt (E1 m) c = tq (tvec (a2 m c)) := funext fun b => E1_time m c b
theorem Wt1 : R1V.Wt (E1 m) c = W (tab (a0 m c)) (tab (a1 m c)) (tvec (a2 m c)) := funext fun b => funext fun j => E1_W m c b j

theorem half_sum (p : Fin 2) : F1 m c main_v44 (ix3 p (0 : Fin 1) (0 : Fin 1))
    = ∑ k : Fin 24, ∑ b : Fin 64, ∑ f : Fin 4096,
        loss (tab (a0 m c)) (tab (a1 m c)) (tab (a3 m c)) (tab (a4 m c)) (tvec (a2 m c)) b (col p k f) := by
  rw [F1_out, R1V.out6 (E1 m) c p, Dt1, Zt1, Pt1, Lt1, Tt1, Wt1]
  rfl

def halves : Fin 2 ≃ S2x1x1.Idx where
  toFun p := ix3 p (0 : Fin 1) (0 : Fin 1)
  invFun i := ⟨(i 0).val, (i 0).isLt⟩
  left_inv p := Fin.ext rfl
  right_inv i := funext fun a => Fin.ext (by
    match a with
    | ⟨0, _⟩ => rfl
    | ⟨1, _⟩ => have h := (i 1).isLt; change (i 1).val < 1 at h; show 0 = (i 1).val; omega
    | ⟨2, _⟩ => have h := (i 2).isLt; change (i 2).val < 1 at h; show 0 = (i 2).val; omega)

theorem sum_halves (x : S2x1x1.Idx → EReal) : ∑ i, x i = ∑ p : Fin 2, x (ix3 p (0 : Fin 1) (0 : Fin 1)) :=
  (Equiv.sum_comp halves x).symm

/-- Sums of extended reals commute: tile by tile is row by row. -/
theorem total_eq (g : Fin 64 → Fin 196608 → EReal) :
    ∑ p : Fin 2, ∑ k : Fin 24, ∑ b : Fin 64, ∑ f : Fin 4096, g b (col p k f) = ∑ b : Fin 64, ∑ d : Fin 196608, g b d := by
  calc ∑ p : Fin 2, ∑ k : Fin 24, ∑ b : Fin 64, ∑ f : Fin 4096, g b (col p k f)
      = ∑ p : Fin 2, ∑ b : Fin 64, ∑ k : Fin 24, ∑ f : Fin 4096, g b (col p k f) :=
        Finset.sum_congr rfl fun p _ => Finset.sum_comm
    _ = ∑ b : Fin 64, ∑ p : Fin 2, ∑ k : Fin 24, ∑ f : Fin 4096, g b (col p k f) := Finset.sum_comm
    _ = ∑ b : Fin 64, ∑ d : Fin 196608, g b d :=
        Finset.sum_congr rfl fun b _ => (sum_tiles (M := EReal) (g b)).symm

/-- The kernel's result is the specification's result of the five arguments. -/
theorem result_eq : (V5 m (outs m) c main_v46 : FVec Ideal S_ .f32)
    = resultOf (a0 m c) (a1 m c) (a2 m c) (a3 m c) (a4 m c) := by
  rw [result_term]
  funext i
  show Ideal.div (Host.reduceAdd (F1 m c main_v44) (constant (F := Ideal) S_ .f32 0x00000000#32) reducesTo_S2x1x1_S_d0_1_2 h_S_ i)
      (Ideal.ofBits .f32 0x4B400000#32) = result _ _ _ _ _
  unfold result
  refine congrArg (Ideal.div · _) ?_
  simp only [Host.reduceAdd, Ideal.hostReduceAdd_def]
  rw [Ideal.hostReduceAdd_total reducesTo_S2x1x1_S_d0_1_2 (fun b => b.elim0)]
  refine congrArg (_ + ·) ?_
  rw [← total_eq (loss (tab (a0 m c)) (tab (a1 m c)) (tab (a3 m c)) (tab (a4 m c)) (tvec (a2 m c)))]
  refine (sum_halves (F1 m c main_v44)).trans ?_
  exact Finset.sum_congr rfl fun p _ => half_sum m c p

end Cert.KernelIdeal.Bridge

end
-- ==== Proof.RefValue.lean ====
import proofs.«170924_j68367289418164_1_alg».proof.Proof.Spec
import proofs.«170924_j68367289418164_1_alg».proof.Proof.Gen.ReferenceIdeal.Run
import proofs.«170924_j68367289418164_1_alg».proof.Proof.Gen.ReferenceIdeal.Read

noncomputable section

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.Read
open Cert.Spec (tab tvec tq noised d2 n2 cross tcolA n2colA d2rowA crossA W mix loss result resultOf wts)

/-- The rank-4 position with the row-major number of entry (b, d) of the table. -/
def pos (b : Fin 64) (d : Fin 196608) : S64x3x256x256.Idx := Shape.reshapeEquiv Cert.Spec.sc_A4_M2 (ix2 b d)

theorem pos_zero (b : Fin 64) (d : Fin 196608) : (pos b d 0).val = b.val := by
  have h := Shape.rowMajor_reshapeEquiv Cert.Spec.sc_A4_M2 (ix2 b d)
  rw [Shape.rowMajor_val_four, Shape.rowMajor_val_two] at h
  have h0 : (pos b d 0).val < 64 := (pos b d 0).isLt
  have h1 : (pos b d 1).val < 3 := (pos b d 1).isLt
  have h2 : (pos b d 2).val < 256 := (pos b d 2).isLt
  have h3 : (pos b d 3).val < 256 := (pos b d 3).isLt
  have hb : b.val < 64 := b.isLt
  have hd : d.val < 196608 := d.isLt
  change ((((pos b d 0).val * 3 + (pos b d 1).val) * 256 + (pos b d 2).val) * 256 + (pos b d 3).val) = b.val * 196608 + d.val at h
  omega

theorem pos_back (b : Fin 64) (d : Fin 196608) :
    Shape.reshapeEquiv shapeCasts_S64x196608_S64x3x256x256 (pos b d) = ix2 b d := by
  unfold pos
  rw [Shape.reshapeEquiv_reshapeEquiv, Shape.reshapeEquiv_self]

section
variable (x0 x1 : FVec Ideal S64x3x256x256 .f32) (x2 : FVec Ideal S64 .f32) (x3 x4 : FVec Ideal S64x3x256x256 .f32)

theorem tcol_eq : val_main_v3 (F := Ideal) x2 = tcolA (tvec x2) := by
  funext i
  rw [val_main_v3_apply, val_main_v1_apply, val_main_v0_apply, val_main_cst_apply]
  have e : idx_main_v3 i = ix1 ⟨(i 0).val, idx2_lt0 i⟩ := funext fun a => by match a with | ⟨0, _⟩ => rfl
  rw [e]
  rfl

theorem v7_pos (b : Fin 64) (d : Fin 196608) :
    val_main_v7 (F := Ideal) x0 x1 x2 (pos b d) = noised (tab x0) (tab x1) (tvec x2) b d := by
  rw [val_main_v7_apply, val_main_v6_apply, val_main_v5_apply, val_main_v2_apply, val_main_v1_apply, val_main_v0_apply,
    val_main_cst_apply, val_main_v4_apply]
  have e : idx_main_v2 (idx_main_v5 (pos b d)) = ix1 b :=
    funext fun a => by match a with | ⟨0, _⟩ => exact Fin.ext (pos_zero b d)
  rw [e]
  rfl

theorem v9_ix2 (b : Fin 64) (d : Fin 196608) :
    val_main_v9 (F := Ideal) x0 x1 x2 (ix2 b d) = noised (tab x0) (tab x1) (tvec x2) b d :=
  v7_pos x0 x1 x2 b d

theorem v8_ix2 (j : Fin 64) (d : Fin 196608) : val_main_v8 (F := Ideal) x0 (ix2 j d) = tab x0 j d := rfl

theorem n2col_eq : val_main_v17 (F := Ideal) x0 x1 x2 = n2colA (tab x0) (tab x1) (tvec x2) := by
  funext i
  rw [val_main_v17_apply, val_main_v16_apply, val_main_cst_2_apply, Ideal.ofBits_def, Ideal.ofBits_zero_f32, zero_add]
  unfold n2colA n2
  refine Finset.sum_congr rfl fun k _ => ?_
  have e : idx_main_v16 (idx_main_v17 i) k = ix2 ⟨(i 0).val, idx2_lt0 i⟩ k :=
    funext fun a => by match a with | ⟨0, _⟩ => rfl | ⟨1, _⟩ => rfl
  rw [e, val_main_v15_apply, v9_ix2]
  rfl

theorem d2row_eq : val_main_v29 (F := Ideal) x0 = d2rowA (tab x0) := by
  funext i
  rw [val_main_v29_apply, val_main_v19_apply, val_main_cst_3_apply, Ideal.ofBits_def, Ideal.ofBits_zero_f32, zero_add]
  unfold d2rowA d2
  refine Finset.sum_congr rfl fun k _ => ?_
  have e : idx_main_v19 (idx_main_v29 i) k = ix2 ⟨(i 1).val, idx2_lt1 i⟩ k :=
    funext fun a => by match a with | ⟨0, _⟩ => rfl | ⟨1, _⟩ => rfl
  rw [e, val_main_v18_apply, v8_ix2]
  rfl

theorem cross_eq : val_main_v21 (F := Ideal) x0 x1 x2 = crossA (tab x0) (tab x1) (tvec x2) := by
  funext i
  rw [val_main_v21_apply]
  unfold crossA cross
  refine Finset.sum_congr rfl fun k _ => ?_
  have el : lidx_main_v21 i k = ix2 ⟨(i 0).val, idx2_lt0 i⟩ k :=
    funext fun a => by match a with | ⟨0, _⟩ => rfl | ⟨1, _⟩ => rfl
  have er : idx_main_v20 (ridx_main_v21 i k) = ix2 ⟨(i 1).val, idx2_lt1 i⟩ k :=
    funext fun a => by match a with | ⟨0, _⟩ => rfl | ⟨1, _⟩ => rfl
  rw [val_main_v20_apply, el, er, v9_ix2, v8_ix2]

theorem wts_eq : val_main_v49 (F := Ideal) x0 x1 x2
    = wts (val_main_v3 (F := Ideal) x2) (val_main_v17 (F := Ideal) x0 x1 x2) (val_main_v29 (F := Ideal) x0)
        (val_main_v21 (F := Ideal) x0 x1 x2) := rfl

theorem v49_ix2 (b j : Fin 64) :
    val_main_v49 (F := Ideal) x0 x1 x2 (ix2 b j) = W (tab x0) (tab x1) (tvec x2) b j := by
  rw [wts_eq, tcol_eq, n2col_eq, d2row_eq, cross_eq]
  rfl

theorem v50_ix2 (b : Fin 64) (d : Fin 196608) :
    val_main_v50 (F := Ideal) x0 x1 x2 (ix2 b d) = mix (tab x0) (tab x1) (tvec x2) b d := by
  rw [val_main_v50_apply]
  unfold mix
  refine Finset.sum_congr rfl fun k _ => ?_
  have el : lidx_main_v50 (ix2 b d) k = ix2 b k :=
    funext fun a => by match a with | ⟨0, _⟩ => rfl | ⟨1, _⟩ => rfl
  have er : ridx_main_v50 (ix2 b d) k = ix2 k d :=
    funext fun a => by match a with | ⟨0, _⟩ => rfl | ⟨1, _⟩ => rfl
  rw [el, er, v49_ix2, v8_ix2]

theorem v57_ix2 (b : Fin 64) (d : Fin 196608) :
    val_main_v57 (F := Ideal) x0 x1 x2 (ix2 b d)
      = Ideal.div (mix (tab x0) (tab x1) (tvec x2) b d - noised (tab x0) (tab x1) (tvec x2) b d)
          (Ideal.ofBits .f32 0x3F800000#32 - tq (tvec x2) b + Ideal.ofBits .f32 0x322BCC77#32) := by
  rw [val_main_v57_apply, val_main_v51_apply, val_main_v56_apply, val_main_v55_apply, val_main_v53_apply, v50_ix2, v9_ix2,
    tcol_eq]
  rfl

theorem v58_pos (b : Fin 64) (d : Fin 196608) :
    val_main_v58 (F := Ideal) x0 x1 x2 (pos b d) = val_main_v57 (F := Ideal) x0 x1 x2 (ix2 b d) := by
  show val_main_v57 (F := Ideal) x0 x1 x2 (Shape.reshapeEquiv shapeCasts_S64x196608_S64x3x256x256 (pos b d)) = _
  rw [pos_back]

theorem v76_pos (b : Fin 64) (d : Fin 196608) :
    val_main_v76 (F := Ideal) x0 x1 x2 x3 x4 (pos b d) = loss (tab x0) (tab x1) (tab x3) (tab x4) (tvec x2) b d := by
  rw [val_main_v76_apply, val_main_v75_apply, val_main_v74_apply, val_main_v62_apply, val_main_v60_apply, v58_pos, v57_ix2]
  rfl

/-- The positions of the table's entries are all rank-4 positions, once each. -/
theorem total_eq :
    ∑ j : S64x3x256x256.Idx, val_main_v76 (F := Ideal) x0 x1 x2 x3 x4 j
      = ∑ b : Fin 64, ∑ d : Fin 196608, loss (tab x0) (tab x1) (tab x3) (tab x4) (tvec x2) b d := by
  rw [← Equiv.sum_comp (Shape.reshapeEquiv Cert.Spec.sc_A4_M2) (val_main_v76 (F := Ideal) x0 x1 x2 x3 x4), sum_idx2]
  exact Finset.sum_congr rfl fun b _ => Finset.sum_congr rfl fun d _ => v76_pos x0 x1 x2 x3 x4 b d

theorem result_eq : val_main_v78 (F := Ideal) x0 x1 x2 x3 x4 = resultOf x0 x1 x2 x3 x4 := by
  funext i
  rw [val_main_v78_apply, val_main_v77_apply, total_eq]
  rfl

end

/-- The reference ends at the specification's result of its arguments, which it keeps. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v78)
          = resultOf (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c => ⟨(h c).1.trans ((val_main_v78_eq m c).trans (result_eq _ _ _ _ _)), (h c).2⟩)
    (Cert.ReferenceIdeal.Value.run (F := Ideal) m ρ)

end Cert.ReferenceIdeal.RefValue

end
-- ==== Proof.lean ====
import proofs.«170924_j68367289418164_1_alg».proof.Defs
import proofs.«170924_j68367289418164_1_alg».proof.Proof.Gen.Kernel
import proofs.«170924_j68367289418164_1_alg».proof.Proof.Gen.KernelIdeal
import proofs.«170924_j68367289418164_1_alg».proof.Proof.Gen.ReferenceIdeal
import proofs.«170924_j68367289418164_1_alg».proof.Proof.Gen.Pre_finite_inputs
import proofs.«170924_j68367289418164_1_alg».proof.Proof.KBits.Run
import proofs.«170924_j68367289418164_1_alg».proof.Proof.KIdeal.BridgeB
import proofs.«170924_j68367289418164_1_alg».proof.Proof.RefValue
import Idealize.ShloMosaic.Adequacy
import Idealize.ShloMosaic.Init

noncomputable section

namespace Cert.Proof

open Idealize.ShloMosaic Idealize.SL.Sem

/-- Each kernel program's frame is its run with the result dropped; -/
theorem frame_k : Cert.frame_Kernel := fun m ρ _ =>
  (θ_run Cert.Kernel.defs _ _).mono (fun _ h c => (h c).2) (Cert.Kernel.Run.run_main (F := Bits) m ρ)

theorem frame_ki : Cert.frame_KernelIdeal := fun m ρ _ =>
  (θ_run Cert.KernelIdeal.defs _ _).mono (fun _ h c => (h c).2) (Cert.KernelIdeal.Run.run_main (F := Ideal) m ρ)

/-- so is the reference's. -/
theorem frame_ri : Cert.frame_ReferenceIdeal := fun m ρ _ =>
  (θ_run Cert.ReferenceIdeal.defs _ _).mono (fun _ h c => (h c).2) (Cert.ReferenceIdeal.RefValue.run_spec m ρ)

/-- Both idealized programs end at the specification's result of the five arguments, on which the memories agree. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Bridge.result_eq m c), (h c).2⟩) (Cert.KernelIdeal.Run.run_main (F := Ideal) m ρ), ?_⟩
  refine (θ_run Cert.ReferenceIdeal.defs _ _).mono (fun _ h c => ⟨?_, (h c).2⟩) (Cert.ReferenceIdeal.RefValue.run_spec m' ρ')
  rw [(h c).1, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
